-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part4 {F : FTy → Type} [FloatOps F] (main_arg3 : IVec S600000 32) (main_v65 : IVec S_ 1) (main_v67 : IVec S600000 1) : IVec S_ 1 :=
  let main_c_26 : IVec S_ 32 := constantI S_ 32 50000#32
  let main_v68 : IVec S600000 32 := broadcastInDim S600000 ![] bcast_S_S600000 main_c_26
  let main_v69 : IVec S600000 1 := cmpi .slt main_arg3 main_v68
  let main_v70 : IVec S600000 1 := andi main_v67 main_v69
  let main_c_27 : IVec S_ 1 := constantI S_ 1 1#1
  let main_v71 : IVec S_ 1 := (fun x v => Host.reduce IntOp.andi x v reducesTo_S600000_S_d0 h_S_) main_v70 main_c_27
  let main_v72 : IVec S_ 1 := andi main_v65 main_v71
  main_v72

def fn_part3 {F : FTy → Type} [FloatOps F] (main_arg2 : IVec S600000 32) (main_arg3 : IVec S600000 32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S600000 32 := broadcastInDim S600000 ![] bcast_S_S600000 main_c_22
  let main_v60 : IVec S600000 1 := cmpi .sge main_arg2 main_v59
  let main_c_23 : IVec S_ 32 := constantI S_ 32 50000#32
  let main_v61 : IVec S600000 32 := broadcastInDim S600000 ![] bcast_S_S600000 main_c_23
  let main_v62 : IVec S600000 1 := cmpi .slt main_arg2 main_v61
  let main_v63 : IVec S600000 1 := andi main_v60 main_v62
  let main_c_24 : IVec S_ 1 := constantI S_ 1 1#1
  let main_v64 : IVec S_ 1 := (fun x v => Host.reduce IntOp.andi x v reducesTo_S600000_S_d0 h_S_) main_v63 main_c_24
  let main_v65 : IVec S_ 1 := andi main_v58 main_v64
  let main_c_25 : IVec S_ 32 := constantI S_ 32 0#32
  let main_v66 : IVec S600000 32 := broadcastInDim S600000 ![] bcast_S_S600000 main_c_25
  let main_v67 : IVec S600000 1 := cmpi .sge main_arg3 main_v66
  fn_part4 (F := F) main_arg3 main_v65 main_v67

def fn_part2 {F : FTy → Type} [FloatOps F] (main_arg2 : IVec S600000 32) (main_arg3 : IVec S600000 32) (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg3 main_arg13 main_v48 main_v49 main_v50

def fn_part1 {F : FTy → Type} [FloatOps F] (main_arg2 : IVec S600000 32) (main_arg3 : IVec S600000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_v33

def fn {F : FTy → Type} [FloatOps F] (main_arg0 : FVec F S50000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S4000x128 : Shape := ⟨2, ![4000, 128]⟩

abbrev nBuf : Space → Nat
  | .hbm => 107
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S1, .i32⟩
  | .hbm, ⟨31, _⟩ => ⟨S_, .i32⟩
  | .hbm, ⟨32, _⟩ => ⟨S600000x1, .i32⟩
  | .hbm, ⟨33, _⟩ => ⟨S600000x1, .i1⟩
  | .hbm, ⟨34, _⟩ => ⟨S1x1, .i32⟩
  | .hbm, ⟨35, _⟩ => ⟨S600000x1, .i32⟩
  | .hbm, ⟨36, _⟩ => ⟨S600000x1, .i1⟩
  | .hbm, ⟨37, _⟩ => ⟨S600000x1, .i1⟩
  | .hbm, ⟨38, _⟩ => ⟨S_, .i1⟩
  | .hbm, ⟨39, _⟩ => ⟨S600000, .i1⟩
  | .hbm, ⟨40, _⟩ => ⟨S600000x128, .f32⟩
  | .hbm, ⟨41, _⟩ => ⟨S600000x128, .i1⟩
  | .hbm, ⟨42, _⟩ => ⟨S_, .f32⟩
  | .hbm, ⟨43, _⟩ => ⟨S600000x128, .f32⟩
  | .hbm, ⟨44, _⟩ => ⟨S600000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S1, .i32⟩
  | .hbm, ⟨54, _⟩ => ⟨S_, .i32⟩
  | .hbm, ⟨55, _⟩ => ⟨S600000x1, .i32⟩
  | .hbm, ⟨56, _⟩ => ⟨S600000x1, .i1⟩
  | .hbm, ⟨57, _⟩ => ⟨S1x1, .i32⟩
  | .hbm, ⟨58, _⟩ => ⟨S600000x1, .i32⟩
  | .hbm, ⟨59, _⟩ => ⟨S600000x1, .i1⟩
  | .hbm, ⟨60, _⟩ => ⟨S600000x1, .i1⟩
  | .hbm, ⟨61, _⟩ => ⟨S_, .i1⟩
  | .hbm, ⟨62, _⟩ => ⟨S600000, .i1⟩
  | .hbm, ⟨63, _⟩ => ⟨S600000x128, .f32⟩
  | .hbm, ⟨64, _⟩ => ⟨S600000x128, .i1⟩
  | .hbm, ⟨65, _⟩ => ⟨S_, .f32⟩
  | .hbm, ⟨66, _⟩ => ⟨S600000x128, .f32⟩
  | .hbm, ⟨67, _⟩ => ⟨S600000x128, .f32⟩
  | .hbm, ⟨68, _⟩ => ⟨S_, .i32⟩
  | .hbm, ⟨69, _⟩ => ⟨S600000, .i32⟩
  | .hbm, ⟨70, _⟩ => ⟨S600000, .i1⟩
  | .hbm, ⟨71, _⟩ => ⟨S_, .i32⟩
  | .hbm, ⟨72, _⟩ => ⟨S600000, .i32⟩
  | .hbm, ⟨73, _⟩ => ⟨S600000, .i32⟩
  | .hbm, ⟨74, _⟩ => ⟨S600000, .i32⟩
  | .hbm, ⟨75, _⟩ => ⟨S600000x1, .i32⟩
  | .hbm, ⟨76, _⟩ => ⟨S1, .i32⟩
  | .hbm, ⟨77, _⟩ => ⟨S_, .i32⟩
  | .hbm, ⟨78, _⟩ => ⟨S600000x1, .i32⟩
  | .hbm, ⟨79, _⟩ => ⟨S600000x1, .i1⟩
  | .hbm, ⟨80, _⟩ => ⟨S1x1, .i32⟩
  | .hbm, ⟨81, _⟩ => ⟨S600000x1, .i32⟩
  | .hbm, ⟨82, _⟩ => ⟨S600000x1, .i1⟩
  | .hbm, ⟨83, _⟩ => ⟨S600000x1, .i1⟩
  | .hbm, ⟨84, _⟩ => ⟨S_, .i1⟩
  | .hbm, ⟨85, _⟩ => ⟨S600000, .i1⟩
  | .hbm, ⟨86, _⟩ => ⟨S600000x128, .f32⟩
  | .hbm, ⟨87, _⟩ => ⟨S600000x128, .i1⟩
  | .hbm, ⟨88, _⟩ => ⟨S_, .f32⟩
  | .hbm, ⟨89, _⟩ => ⟨S600000x128, .f32⟩
  | .hbm, ⟨90, _⟩ => ⟨S600000x128, .f32⟩
  | .hbm, ⟨91, _⟩ => ⟨S600000x128, .f32⟩
  | .hbm, ⟨92, _⟩ => ⟨S600000x128, .f32⟩
  | .hbm, ⟨93, _⟩ => ⟨S_, .f32⟩
  | .hbm, ⟨94, _⟩ => ⟨S50000x128, .f32⟩
  | .hbm, ⟨95, _⟩ => ⟨S600000x1, .i32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S600000x1, .i32⟩
  | .hbm, ⟨100, _⟩ => ⟨S50000x128, .f32⟩
  | .hbm, ⟨101, _⟩ => ⟨S50000x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v5 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v6 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v7 : Ref sig .tc := ⟨.hbm, 90, rfl⟩
abbrev main_v8_0 : Ref sig .tc := ⟨.hbm, 91, rfl⟩
abbrev main_v8_1 : Ref sig .tc := ⟨.hbm, 92, rfl⟩
abbrev main_cst : Ref sig .tc := ⟨.hbm, 93, rfl⟩
abbrev main_v9 : Ref sig .tc := ⟨.hbm, 94, rfl⟩
abbrev main_v10 : Ref sig .tc := ⟨.hbm, 95, rfl⟩
abbrev main_v11 : Ref sig .tc := ⟨.hbm, 96, rfl⟩
abbrev main_cst_0 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_v15_0 : Ref sig .tc := ⟨.hbm, 101, rfl⟩
abbrev main_v15_1 : Ref sig .tc := ⟨.hbm, 102, rfl⟩
abbrev main_v15_2 : Ref sig .tc := ⟨.hbm, 103, rfl⟩
abbrev main_v16 : Ref sig .tc := ⟨.hbm, 104, rfl⟩
abbrev main_v17 : Ref sig .tc := ⟨.hbm, 105, rfl⟩
abbrev main_v18 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg5_0 : Ref sig .tc := ⟨.vmem, 37, rfl⟩
abbrev cc2_scratch0 : Ref sig .tc := ⟨.vmem, 38, rfl⟩
abbrev cc2_scratch1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem5_0 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v29 : BitVec 1 := Scalar.cmpi .eq arg0 c24_i32
  let v30 : BitVec 32 := Scalar.extui v29
  let c0_i32_18 : BitVec 32 := 0#32
  let v31 : BitVec 1 := Scalar.cmpi .ne v30 c0_i32_18
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S50000x128 : S_.BroadcastsInDim S50000x128 (![] : Fin 0 → Fin S50000x128.rank)
  shapeCasts_S2000x128_S2000x128 : S2000x128.ShapeCasts S2000x128
  reduces_S2000x128_S128 : S2000x128.Reduces [0] S128
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .f32 = 32 ∨ (Rect.block (s := S50000x128) S2000x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S600000x128.size a
  hwx1_0 : ∀ i : grid1.Coords, EltTy.bits .f32 = 32 ∨ (Rect.block (s := S600000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S600000x128.size a
  hwx1_1 : ∀ i : grid1.Coords, EltTy.bits .f32 = 32 ∨ (Rect.block (s := S600000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S600000x128.size a
  hwx1_2 : ∀ i : grid1.Coords, EltTy.bits .f32 = 32 ∨ (Rect.block (s := S600000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S600000x128.size a
  hwx1_3 : ∀ i : grid1.Coords, EltTy.bits .f32 = 32 ∨ (Rect.block (s := S600000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S600000x128.size a
  hwx1_4 : ∀ i : grid1.Coords, EltTy.bits .f32 = 32 ∨ (Rect.block (s := S600000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_3) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v5) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S4000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15_0) S2000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v15_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_1) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15_2) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v17) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg0) S2000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v18) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S600000x1 : Shape := ⟨2, ![600000, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S600000x128, .f32⟩
  | .hbm, ⟨51, _⟩ => ⟨S_, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S600000x128, .f32⟩
  | .hbm, ⟨56, _⟩ => ⟨S600000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S600000x128, .f32⟩
  | .hbm, ⟨67, _⟩ => ⟨S_, .f32⟩
  | .hbm, ⟨68, _⟩ => ⟨S50000x128, .f32⟩
  | .hbm, ⟨69, _⟩ => ⟨S600000x1, .i32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S_, .i32⟩
  | .hbm, ⟨86, _⟩ => ⟨S_, .f32⟩
  | .hbm, ⟨87, _⟩ => ⟨S128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S_, .f32⟩
  | .hbm, ⟨103, _⟩ => ⟨S_, .i1⟩
  | .hbm, ⟨104, _⟩ => ⟨S_, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S128, .f32⟩
  | .hbm, ⟨113, _⟩ => ⟨S128, .f32⟩
  | .hbm, ⟨114, _⟩ => ⟨S128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S1x128, .f32⟩
  | .hbm, ⟨119, _⟩ => ⟨S50000x128, .f32⟩
  | .hbm, ⟨120, _⟩ => ⟨S50000x128, .f32⟩
  | .hbm, ⟨121, _⟩ => ⟨S1x128, .f32⟩
  | .hbm, ⟨122, _⟩ => ⟨S50000x128, .f32⟩
  | .hbm, ⟨123, _⟩ => ⟨S50000x128, .f32⟩
  | .hbm, ⟨124, _⟩ => ⟨S_, .f32⟩
  | .hbm, ⟨125, _⟩ => ⟨S50000x128, .f32⟩
  | .hbm, ⟨126, _⟩ => ⟨S50000x128, .f32⟩
  | .hbm, ⟨127, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_cst_0 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_cst_1 : Ref sig .tc := ⟨.hbm, 96, rfl⟩
abbrev main_call0_v8 : Ref sig .tc := ⟨.hbm, 97, rfl⟩
abbrev main_call0_cst_2 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_call0_cst_3 : Ref sig .tc := ⟨.hbm, 102, rfl⟩
abbrev main_call0_v12 : Ref sig .tc := ⟨.hbm, 103, rfl⟩
abbrev main_call0_cst_4 : Ref sig .tc := ⟨.hbm, 104, rfl⟩
abbrev main_call0_call0_v0 : Ref sig .tc := ⟨.hbm, 105, rfl⟩
abbrev main_call0_call0_v1 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_12 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_call1_cst : Ref sig .tc := ⟨.hbm, 124, rfl⟩
abbrev main_call1_v0 : Ref sig .tc := ⟨.hbm, 125, rfl⟩
abbrev main_v74 : Ref sig .tc := ⟨.hbm, 126, rfl⟩
abbrev main_v75 : Ref sig .tc := ⟨.hbm, 127, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.K.R0.lean ====
import proofs.«424071_j18090402251221_1_alg».proof.Proof.Gen.Kernel.Launch
import proofs.«424071_j18090402251221_1_alg».proof.Proof.Gen.Kernel.Skeleton
import proofs.«424071_j18090402251221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

def out0_9 (x0 : Vec F S2000x128 .f32) (x1 : Vec F S128x128 .f32) (x2 : Vec F S1x128 .f32) : Vec F S2000x128 .f32 :=
  View.canon [⟨r0_0, k0_pay3 (View.ld x0 r0_0) (View.ld x1 r0_1) (View.ld x2 r0_2)⟩]

def out0_10 (x0 : Vec F S2000x128 .f32) (x3 : Vec F S128x128 .f32) (x4 : Vec F S1x128 .f32) : Vec F S2000x128 .f32 :=
  View.canon [⟨r0_0, k0_pay4 (View.ld x0 r0_0) (View.ld x3 r0_1) (View.ld x4 r0_2)⟩]

def out0_11 (x0 : Vec F S2000x128 .f32) (x5 : Vec F S128x128 .f32) (x6 : Vec F S1x128 .f32) : Vec F S2000x128 .f32 :=
  View.canon [⟨r0_0, k0_pay5 (View.ld x0 r0_0) (View.ld x5 r0_1) (View.ld x6 r0_2)⟩]

def out0_12 (x0 : Vec F S2000x128 .f32) (x7 : Vec F S128x128 .f32) (x8 : Vec F S1x128 .f32) : Vec F S2000x128 .f32 :=
  View.canon [⟨r0_0, k0_pay1 (k0_pay6 (View.ld x0 r0_0) (View.ld x7 r0_1)) (View.ld x8 r0_2)⟩]

/-- The one rectangle of the list is the whole shape, so the list covers every index. -/
theorem cover0_out (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t)
    | ⟨10, _⟩ => out0_10 (iblk0 V c 0 t) (iblk0 V c 3 t) (iblk0 V c 4 t)
    | ⟨11, _⟩ => out0_11 (iblk0 V c 0 t) (iblk0 V c 5 t) (iblk0 V c 6 t)
    | ⟨12, _⟩ => out0_12 (iblk0 V c 0 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = out0_9 (iblk0 V c 0 t) (iblk0 V c 1 t) (iblk0 V c 2 t) := by dsimp only [dat0]
theorem after0_10 (c : Dev nD) (t : Fin cfg0.N) : (dat0 V c).after 10 t = out0_10 (iblk0 V c 0 t) (iblk0 V c 3 t) (iblk0 V c 4 t) := by dsimp only [dat0]
theorem after0_11 (c : Dev nD) (t : Fin cfg0.N) : (dat0 V c).after 11 t = out0_11 (iblk0 V c 0 t) (iblk0 V c 5 t) (iblk0 V c 6 t) := by dsimp only [dat0]
theorem after0_12 (c : Dev nD) (t : Fin cfg0.N) : (dat0 V c).after 12 t = out0_12 (iblk0 V c 0 t) (iblk0 V c 7 t) (iblk0 V c 8 t) := by dsimp only [dat0]

/-- The body returns every input block unchanged, so at each point an input holds its block of the array. -/
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) := by
  refine ⟨?_, ?_, ?_, ?_, ?_, ?_, ?_, ?_, ?_⟩ <;>
    exact fun d => (Dat.before_in_eq_fetched _ _ rfl (fun _ => rfl) (fun _ _ _ => rfl) (fun _ => rfl) t d).trans rfl

set_option maxHeartbeats 4000000 in
/-- Each output is written once over its whole shape, so it ends at that payload of the input blocks; everything else comes back as found. -/
theorem body_obligation0 (c : Dev nD) : BodyObligation (dat0 (F := F) V c) (defs₀ (F := F)) Variants.none () Set.univ := fun t => by
  rw [bigSep_W0, bigSep_W0]
  show _ ⊢ wp frame _ _ (bodyAt0 t) _
  simp only [before0 V c t, bodyAt0, cc0__proj_kernel_eq_skeleton]
  dsimp only [dat0]
  unfold cc0__proj_kernel_skel
  simp only [k0_part1_eq_skeleton]; unfold k0_part1_skel
  unfold owns
  iintro ⟨HΦ, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, -, H9⟩, ⟨%d10, %f10, -, H10⟩, ⟨%d11, %f11, -, H11⟩, ⟨%d12, %f12, -, H12⟩⟩
  rw [← e0, ← e1, ← e2, ← e3, ← e4, ← e5, ← e6, ← e7, ← e8]
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro; exact View.read_writes_eq_canon _ _ _ (cover0_out _)
  isplitl [H10]
  · iexists _; isplitr; swap; · iexact H10
    ipureintro; exact View.read_writes_eq_canon _ _ _ (cover0_out _)
  isplitl [H11]
  · iexists _; isplitr; swap; · iexact H11
    ipureintro; exact View.read_writes_eq_canon _ _ _ (cover0_out _)
  iexists _; isplitr; swap; · iexact H12
  ipureintro; exact View.read_writes_eq_canon _ _ _ (cover0_out _)

end Cert.Kernel.Hand

end
-- ==== Proof.K.R1.lean ====
import proofs.«424071_j18090402251221_1_alg».proof.Proof.Gen.Kernel.Launch
import proofs.«424071_j18090402251221_1_alg».proof.Proof.Gen.Kernel.Skeleton
import proofs.«424071_j18090402251221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

-- Window `w`'s block at point `t`, read off the array `V` gives it.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x128 := Rect.unit (s := S4000x128) ![0, 0] S4000x128.size inb_S4000x128_S4000x128_0_0

-- The gate: the first payload of the first two blocks, laid over the whole output block.
def out1_3 (x0 x1 : Vec F S4000x128 .f32) : Vec F S4000x128 .f32 :=
  View.canon [⟨r1_0, k1_pay1 (View.ld x0 r1_0) (View.ld x1 r1_0)⟩]

-- The gated block: the second payload of the three blocks read.
def out1_4 (x0 x1 x2 : Vec F S4000x128 .f32) : Vec F S4000x128 .f32 :=
  View.canon [⟨r1_0, k1_pay2 (View.ld x0 r1_0) (View.ld x1 r1_0) (View.ld x2 r1_0)⟩]

-- Each input keeps its block; the outputs receive `out1_3` and `out1_4` of the input blocks.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

-- The body leaves every input as it found it, so what an input holds before a point is what it holds after it.
theorem before1 (c : Dev nD) (t : Fin cfg1.N) :
    ∀ w : Fin cfg1.W, (cfg1.win w).isOut = false → ∀ d, (dat1 V c).before w t d = (dat1 V c).after w t
  | ⟨0, _⟩, _, d | ⟨1, _⟩, _, d | ⟨2, _⟩, _, d =>
    ((dat1 V c).before_in_eq_fetched _ rfl (fun _ => rfl) (fun _ _ _ => rfl) (fun _ => rfl) t d).trans rfl
  | ⟨3, _⟩, h, _ | ⟨4, _⟩, h, _ => nomatch h

-- The body reads the three input blocks and writes `out1_3`, `out1_4` of them over the whole output blocks; the rest passes through.
theorem body_obligation1 (c : Dev nD) : BodyObligation (dat1 (F := F) V c) (defs₀ (F := F)) Variants.none () Set.univ := fun t => by
  rw [bigSep_W1, bigSep_W1]
  simp (disch := exact rfl) only [before1 V c t]
  dsimp only [dat1]
  show _ ⊢ wp _ _ _ (bodyAt1 t) _
  simp only [bodyAt1, cc1__gate_kernel_eq_skeleton]; unfold cc1__gate_kernel_skel
  conv_lhs => unfold owns
  iintro ⟨HΦ, Ho, ⟨%_, %f0, %h0, H0⟩, ⟨%_, %f1, %h1, H1⟩, ⟨%_, %f2, %h2, H2⟩, ⟨%_, %f3, -, H3⟩, ⟨%_, %f4, -, H4⟩⟩
  rw [← h0, ← h1, ← h2]
  sl_exec
  sl_step
  iframe HΦ
  isplitl [Ho]; · iexact Ho
  isplitl [H0]; · iapply owns_intro $$ H0
  isplitl [H1]; · iapply owns_intro $$ H1
  isplitl [H2]; · iapply owns_intro $$ H2
  unfold owns
  isplitl [H3]
  · iexists _; isplitr; swap; · iexact H3
    ipureintro; exact View.read_writes_eq_canon _ _ _ (View.cover_of_tiled _ S4000x128.size (by rfl))
  iexists _; isplitr; swap; · iexact H4
  ipureintro; exact View.read_writes_eq_canon _ _ _ (View.cover_of_tiled _ S4000x128.size (by rfl))

end Cert.Kernel.Hand

end
-- ==== Proof.K.R2.lean ====
import proofs.«424071_j18090402251221_1_alg».proof.Proof.Gen.Kernel.Launch
import proofs.«424071_j18090402251221_1_alg».proof.Proof.Gen.Kernel.Skeleton
import proofs.«424071_j18090402251221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rS2 : Rect S1x128 := Rect.unit (s := S1x128) ![0, 0] S1x128.size inb_S1x128_S1x128_0_0
abbrev rB2 : Rect S2000x128 := Rect.unit (s := S2000x128) ![0, 0] S2000x128.size inb_S2000x128_S2000x128_0_0

theorem hz2 : (![0, 0] : Fin 2 → Nat) = fun _ => 0 := by funext a; fin_cases a <;> rfl

/-- The last store covers the whole shape, so whatever came before is overwritten. -/
theorem read_store_whole2 {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

abbrev cond2_1 (i : grid2.Coords) : Prop := (Scalar.cmpi .ne (Scalar.extui (Scalar.cmpi .eq (BitVec.ofNat 32 (i 0).val) 0#32)) 0#32) = 1#1
abbrev cond2_2 (i : grid2.Coords) : Prop := k2_cond2 i = 1#1

def acc2 (c : Dev nD) : (n : ℕ) → n < cfg2.N → Vec F S1x128 .f32 × Vec F S1x128 .f32
  | 0, h => (k2_pay6 (iblk2 V c 0 ⟨0, h⟩) (iblk2 V c 1 ⟨0, h⟩) (iblk2 V c 2 ⟨0, h⟩) k2_pay3, k2_pay7 (iblk2 V c 0 ⟨0, h⟩) (iblk2 V c 1 ⟨0, h⟩) (iblk2 V c 2 ⟨0, h⟩) k2_pay4)
  | n + 1, h => (k2_pay6 (iblk2 V c 0 ⟨n + 1, h⟩) (iblk2 V c 1 ⟨n + 1, h⟩) (iblk2 V c 2 ⟨n + 1, h⟩) (acc2 c n (Nat.lt_of_succ_lt h)).1, k2_pay7 (iblk2 V c 0 ⟨n + 1, h⟩) (iblk2 V c 1 ⟨n + 1, h⟩) (iblk2 V c 2 ⟨n + 1, h⟩) (acc2 c n (Nat.lt_of_succ_lt h)).2)

theorem acc2_succ (c : Dev nD) (n : ℕ) (h : n + 1 < cfg2.N) :
    acc2 V c (n + 1) h = (k2_pay6 (iblk2 V c 0 ⟨n + 1, h⟩) (iblk2 V c 1 ⟨n + 1, h⟩) (iblk2 V c 2 ⟨n + 1, h⟩) (acc2 V c n (Nat.lt_of_succ_lt h)).1, k2_pay7 (iblk2 V c 0 ⟨n + 1, h⟩) (iblk2 V c 1 ⟨n + 1, h⟩) (iblk2 V c 2 ⟨n + 1, h⟩) (acc2 V c n (Nat.lt_of_succ_lt h)).2) := rfl

abbrev scM2_0 : Memref sig .tc .vmem S1x128 .f32 := Memref.whole cc2_scratch0
abbrev scM2_1 : Memref sig .tc .vmem S1x128 .f32 := Memref.whole cc2_scratch1

def Phi2 (c : Dev nD) : (n : ℕ) → n ≤ cfg2.N → sProp 𝕄
  | 0, _ => Pipeline.ΦA spec2 c
  | n + 1, hn => iprop(owns (c : Thread nD τ) scM2_0 fullShare (acc2 V c n hn).1 ∗ owns (c : Thread nD τ) scM2_1 fullShare (acc2 V c n hn).2
      ∗ Pipeline.scopedRestBut spec2 c [cc2_scratch0, cc2_scratch1] ∗ (∃ r, prngReg c r))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

/-- Before a point both running rows are held, at anything at the first point and at the sums so far after it; either way this point's sums follow from them. -/
theorem Phi2_open (c : Dev nD) (t : Fin cfg2.N) :
    Phi2 V c t.val (Nat.le_of_lt t.isLt) ⊢ iprop(∃ s0 s1,
      ⌜(acc2 V c t.val t.isLt).1 = k2_pay6 (iblk2 V c 0 t) (iblk2 V c 1 t) (iblk2 V c 2 t) (if t.val = 0 then k2_pay3 else s0)
        ∧ (acc2 V c t.val t.isLt).2 = k2_pay7 (iblk2 V c 0 t) (iblk2 V c 1 t) (iblk2 V c 2 t) (if t.val = 0 then k2_pay4 else s1)⌝
      ∗ owns (c : Thread nD τ) scM2_0 fullShare s0 ∗ owns (c : Thread nD τ) scM2_1 fullShare s1
      ∗ Pipeline.scopedRestBut spec2 c [cc2_scratch0, cc2_scratch1] ∗ (∃ r, prngReg c r)) := by
  obtain ⟨_ | n, hn⟩ := t
  · show Pipeline.ΦA spec2 c ⊢ _
    rw [PhiA2_eq]
    iintro ⟨⟨⟨⟨%s0, H0⟩, ⟨%s1, H1⟩⟩, HR⟩, Hg⟩
    iexists s0, s1; isplitr; · ipureintro; exact ⟨rfl, rfl⟩
    iframe
  · rw [Phi2]; iintro H; iexists _, _; isplitr; swap; iexact H; ipureintro; exact ⟨rfl, rfl⟩

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => View.canon ([⟨rB2, k2_pay5 (iblk2 V c 0 t) (iblk2 V c 1 t) (iblk2 V c 2 t)⟩] : List (View.Piece (Elt F) S2000x128 .f32))
    | ⟨4, _⟩ => View.canon ([⟨rS2, k2_pay1 (acc2 V c t.val t.isLt).1⟩] : List (View.Piece (Elt F) S1x128 .f32))
    | ⟨5, _⟩ => View.canon ([⟨rS2, k2_pay2 (acc2 V c t.val t.isLt).1 (acc2 V c t.val t.isLt).2⟩] : List (View.Piece (Elt F) S1x128 .f32))
  Φ t := Phi2 V c t.val (Nat.le_of_lt_succ t.isLt)
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

theorem after2_3_pay (c : Dev nD) (t : Fin cfg2.N) : (dat2 V c).after 3 t = k2_pay5 (iblk2 V c 0 t) (iblk2 V c 1 t) (iblk2 V c 2 t) :=
  by dsimp only [dat2]; exact View.canon_unit_zero (S := S2000x128) hz2 _ _
theorem after2_4_pay (c : Dev nD) (t : Fin cfg2.N) : (dat2 V c).after 4 t = k2_pay1 (acc2 V c t.val t.isLt).1 :=
  by dsimp only [dat2]; exact View.canon_unit_zero (S := S1x128) hz2 _ _
theorem after2_5_pay (c : Dev nD) (t : Fin cfg2.N) : (dat2 V c).after 5 t = k2_pay2 (acc2 V c t.val t.isLt).1 (acc2 V c t.val t.isLt).2 :=
  by dsimp only [dat2]; exact View.canon_unit_zero (S := S1x128) hz2 _ _

/-- The body does not change its inputs, so at each point it finds what it leaves. -/
theorem before2 (c : Dev nD) (t : Fin cfg2.N) : ∀ (w : Fin cfg2.W) (_ : w.val < 3) (d), (dat2 V c).before w t d = (dat2 V c).after w t
  | ⟨0, _⟩, _, d | ⟨1, _⟩, _, d | ⟨2, _⟩, _, d =>
    (Dat.before_in_eq_fetched (dat2 V c) _ rfl (fun _ => rfl) (fun _ _ _ => rfl) (fun _ => rfl) t d).trans rfl
  | ⟨_ + 3, _⟩, h, _ => absurd h (Nat.not_lt.2 (Nat.le_add_left _ _))

theorem hcond2_1 : ∀ t : Fin cfg2.N, cond2_1 (grid2.coords t) ↔ t.val = 0 := by decide +kernel
theorem hcond2_2 : ∀ t : Fin cfg2.N, cond2_2 (grid2.coords t) ↔ t.val = 24 := by decide +kernel

/-- The two row outputs are written at the last point and at no other. -/
theorem sched2 : ∀ (t : Fin cfg2.N) (w : Fin cfg2.W), 4 ≤ w.val →
    (t.val ≠ 24 → cfg2.idle w (cfg2.grid.coords t) = true ∧ (cfg2.win w).flush t = false) ∧ (t.val = 24 → cfg2.idle w (cfg2.grid.coords t) = false) := by
  decide +kernel

/-- So a row output left at its new value at the last point, and as found elsewhere, is what the point must leave. -/
theorem leaves2 (c : Dev nD) (t : Fin cfg2.N) (w : Fin cfg2.W) (hw : 4 ≤ w.val) (d) (a) (ha : (dat2 V c).after w t = a) :
    owns (c : Thread nD τ) ((cfg2.win w).stage (cfg2.slots t w)) fullShare (if t.val = 24 then a else (dat2 V c).before w t d) ⊢ (dat2 V c).leavesExact w t := by
  obtain ⟨hi, hl⟩ := sched2 t w hw
  by_cases h : t.val = 24
  · unfold Dat.leavesExact; rw [if_pos h, ← ha, hl h] <;> exact .rfl
  · rw [if_neg h, Dat.leavesExact_idle _ w t (hi h).1 (hi h).2]; iintro H; iexists d; iexact H

set_option maxHeartbeats 1000000 in
/-- The raw block is stored; the running rows restart at the first point and take this point's column sums; at the last point the row outputs are stored from them, elsewhere they stay as found. -/
theorem body_obligation2 (c : Dev nD) : BodyObligation (dat2 (F := F) V c) (defs₀ (F := F)) Variants.none () Set.univ := fun t => by
  rw [bigSep_W2, bigSep_W2]
  rw [show (dat2 V c).owesAt () t.succ = (dat2 V c).owesAt () t.castSucc from rfl]
  rw [show (dat2 V c).Φ t.succ = Phi2 V c (t.val + 1) t.isLt from rfl, Phi2]
  simp only [before2 V c t 0 (by decide), before2 V c t 1 (by decide), before2 V c t 2 (by decide), after2_0, after2_1, after2_2, after2_3_pay]
  refine (sep_mono_left (Phi2_open V c t)).trans ?_
  show _ ⊢ wp _ _ _ (bodyAt2 t) _
  simp only [bodyAt2, cc2__stats_kernel_eq_skeleton]; unfold cc2__stats_kernel_skel
  simp only [k2_part1_eq_skeleton]; unfold k2_part1_skel
  conv_lhs => unfold owns
  iintro ⟨⟨%s0, %s1, %ha, ⟨%g0, %e0, HS0⟩, ⟨%g1, %e1, HS1⟩, HR, Hg⟩, Ho, ⟨%_, %f0, %h0, H0⟩, ⟨%_, %f1, %h1, H1⟩, ⟨%_, %f2, %h2, H2⟩, ⟨%_, %f3, -, H3⟩, ⟨%d4, %f4, %h4, H4⟩, ⟨%d5, %f5, %h5, H5⟩⟩
  subst e0 e1
  rw [← h0, ← h1, ← h2] at ha ⊢
  rw [ha.1, ha.2]
  by_cases hp1 : t.val = 0 <;> by_cases hp2 : t.val = 24 <;> first | (exfalso; omega) | skip
  all_goals
    (first | rw [if_pos hp1, if_pos hp1] | rw [if_neg hp1, if_neg hp1])
    sl_exec (disch := first | exact (hcond2_1 t).mpr hp1 | exact mt (hcond2_1 t).mp hp1 | exact (hcond2_2 t).mpr hp2 | exact mt (hcond2_2 t).mp hp2)
    sl_step
    iframe HR Hg Ho
    isplitl [HS0 HS1]; rotate_left; isplitl [H0]; rotate_left; isplitl [H1]; rotate_left; isplitl [H2]; rotate_left
    isplitl [H3]; rotate_left; isplitl [H4]; rotate_left
    all_goals (first | iapply (leaves2 V c t 4 (by decide) d4 _ (after2_4_pay V c t)) | iapply (leaves2 V c t 5 (by decide) d5 _ (after2_5_pay V c t)) | isplitl [HS0] | skip)
    all_goals (unfold owns; iexists _; isplitr; swap; iassumption; ipureintro)
    all_goals first | rfl | (rw [if_neg hp2]; assumption) | ((try simp only [if_pos hp2, ha.1, ha.2, if_neg hp1]); sl_unfold_words; simp only [View.readAt_eq_ld, View.ld_unit_zero (S := S2000x128) hz2, View.ld_unit_zero (S := S1x128) hz2, View.readCov_unit_zero (S := S1x128) _ hz2, read_store_whole2 (S := S2000x128) _ _ hz2, read_store_whole2 (S := S1x128) _ _ hz2])

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := by
  suffices h : ∀ n h, Phi2 V c (n + 1) h ⊢ (Pipeline.ΦA spec2 c : sProp 𝕄) from h 24 (Nat.le_refl _)
  intro n h; rw [Phi2, PhiA2_eq]
  iintro ⟨H0, H1, HR, Hg⟩
  iframe HR Hg
  isplitl [H0] <;> iexists _ <;> iassumption

end Cert.Kernel.Hand

end
-- ==== Proof.K.R3.lean ====
import proofs.«424071_j18090402251221_1_alg».proof.Proof.Gen.Kernel.Launch
import proofs.«424071_j18090402251221_1_alg».proof.Proof.Gen.Kernel.Skeleton
import proofs.«424071_j18090402251221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

-- Window `w`'s block at point `t`, read off the array `V` gives it.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_row : Rect S1x128 := Rect.unit (s := S1x128) ![0, 0] S1x128.size inb_S1x128_S1x128_0_0
abbrev r3_blk : Rect S2000x128 := Rect.unit (s := S2000x128) ![0, 0] S2000x128.size inb_S2000x128_S2000x128_0_0

-- The normalised block: the payload of the six blocks read, laid over the whole output block.
def out3_6 (x0 : Vec F S2000x128 .f32) (x1 x2 x3 x4 : Vec F S1x128 .f32) (x5 : Vec F S2000x128 .f32) : Vec F S2000x128 .f32 :=
  View.canon [⟨r3_blk, k3_pay1 (View.ld x1 r3_row) (View.ld x2 r3_row) (View.ld x0 r3_blk) (View.ld x3 r3_row) (View.ld x4 r3_row) (View.ld x5 r3_blk)⟩]

-- Each input keeps its block; the output receives `out3_6` of the six input blocks.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

-- The body leaves every input as it found it, so what an input holds before a point is what it holds after it.
theorem before3 (c : Dev nD) (t : Fin cfg3.N) :
    ∀ w : Fin cfg3.W, (cfg3.win w).isOut = false → ∀ d, (dat3 V c).before w t d = (dat3 V c).after w t
  | ⟨0, _⟩, _, d | ⟨1, _⟩, _, d | ⟨2, _⟩, _, d | ⟨3, _⟩, _, d | ⟨4, _⟩, _, d | ⟨5, _⟩, _, d =>
    ((dat3 V c).before_in_eq_fetched _ rfl (fun _ => rfl) (fun _ _ _ => rfl) (fun _ => rfl) t d).trans rfl
  | ⟨6, _⟩, h, _ => nomatch h

-- The body reads the six input blocks and writes `out3_6` of them over the whole output block; the rest passes through.
theorem body_obligation3 (c : Dev nD) : BodyObligation (dat3 (F := F) V c) (defs₀ (F := F)) Variants.none () Set.univ := fun t => by
  rw [bigSep_W3, bigSep_W3]
  simp (disch := exact rfl) only [before3 V c t]
  dsimp only [dat3]
  show _ ⊢ wp _ _ _ (bodyAt3 t) _
  simp only [bodyAt3, cc3__norm_kernel_eq_skeleton]; unfold cc3__norm_kernel_skel
  conv_lhs => unfold owns
  iintro ⟨HΦ, Ho, ⟨%_, %f0, %h0, H0⟩, ⟨%_, %f1, %h1, H1⟩, ⟨%_, %f2, %h2, H2⟩, ⟨%_, %f3, %h3, H3⟩, ⟨%_, %f4, %h4, H4⟩, ⟨%_, %f5, %h5, H5⟩, ⟨%_, %f6, -, H6⟩⟩
  rw [← h0, ← h1, ← h2, ← h3, ← h4, ← h5]
  sl_exec
  sl_step
  iframe HΦ
  isplitl [Ho]; · iexact Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  isplitl [H5]; · iapply owns_intro $$ H5
  unfold owns; iexists _; isplitr; swap; · iexact H6
  ipureintro; exact View.read_writes_eq_canon _ _ _ (View.cover_of_tiled _ S2000x128.size (by rfl))

end Cert.Kernel.Hand

end
-- ==== Proof.K.Run.lean ====
import proofs.«424071_j18090402251221_1_alg».proof.Proof.K.R0
import proofs.«424071_j18090402251221_1_alg».proof.Proof.K.R1
import proofs.«424071_j18090402251221_1_alg».proof.Proof.K.R2
import proofs.«424071_j18090402251221_1_alg».proof.Proof.K.R3
import proofs.«424071_j18090402251221_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

abbrev W4 : Dev nD → Valuation τ sig (Elt F) := fun c => StableHlo.after hostOps1_1 (W3 m ρ c)
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h

def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) :=
  Pipeline.withArrays_of_ne spec1 c _ _ b hb

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h

def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) :=
  Pipeline.withArrays_of_ne spec2 c _ _ b hb

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb

abbrev Wi : Fin 4 → Dev nD → Valuation τ sig (Elt F)
  | ⟨0, _⟩ => W1 m ρ | ⟨1, _⟩ => W5 m ρ | ⟨2, _⟩ => W7 m ρ | ⟨3, _⟩ => W9 m ρ
abbrev Wo : Fin 4 → Dev nD → Valuation τ sig (Elt F)
  | ⟨0, _⟩ => W2 m ρ | ⟨1, _⟩ => W6 m ρ | ⟨2, _⟩ => W8 m ρ | ⟨3, _⟩ => W10 m ρ
def pdats : (p : Fin 4) → (c : Dev nD) → Dat τ (Elt F) Unit ℕ (UR sig nD τ) ℕ (cfgs p) c
  | ⟨0, _⟩ => dat0 (V1 m ρ) | ⟨1, _⟩ => dat1 (V5 m ρ) | ⟨2, _⟩ => dat2 (V7 m ρ) | ⟨3, _⟩ => dat3 (V9 m ρ)
theorem launch : ∀ p : Fin 4, Pipeline.LaunchFacts (nD := nD) (τ := τ) cfgs p
  | ⟨0, _⟩ => launch0 | ⟨1, _⟩ => launch1 | ⟨2, _⟩ => launch2 | ⟨3, _⟩ => launch3
theorem Wo_arr : ∀ (p : Fin 4) (c : Dev nD) (w : Fin (cfgs p).W),
    Wo m ρ p c (Proc.devRef .tc (Pipeline.arrRef (cfgs p).spec w)) = (pdats m ρ p c).arrAt w (cfgs p).N
  | ⟨0, _⟩ => W2_arr m ρ | ⟨1, _⟩ => W6_arr m ρ | ⟨2, _⟩ => W8_arr m ρ | ⟨3, _⟩ => W10_arr m ρ
theorem Wo_of_ne : ∀ (p : Fin 4) (c : Dev nD) (b : Ref sig .tc), (∀ w, Pipeline.arrRef (cfgs p).spec w ≠ b) →
    Wo m ρ p c (Proc.devRef .tc b) = Wi m ρ p c (Proc.devRef .tc b)
  | ⟨0, _⟩ => W2_of_ne m ρ | ⟨1, _⟩ => W6_of_ne m ρ | ⟨2, _⟩ => W8_of_ne m ρ | ⟨3, _⟩ => W10_of_ne m ρ
theorem plain : ∀ (p : Fin 4) (c : Dev nD), (∀ w, (pdats m ρ p c).q w = fullShare)
    ∧ (∀ w, (pdats m ρ p c).A w = Wi m ρ p c (Proc.devRef .tc (Pipeline.arrRef (cfgs p).spec w)))
    ∧ (∀ t, (pdats m ρ p c).owed t = 0) ∧ ∀ x, x ∈ (pdats m ρ p c).recorded 0
  | ⟨0, _⟩, _ | ⟨1, _⟩, _ | ⟨2, _⟩, _ | ⟨3, _⟩, _ => ⟨fun _ => rfl, fun _ => rfl, fun _ => rfl, fun _ => trivial⟩
theorem hΦ : ∀ (p : Fin 4) (c : Dev nD), (Pipeline.ΦA (cfgs p).spec c ⊢ (pdats m ρ p c).Φ 0)
    ∧ ((pdats m ρ p c).Φ (Fin.last (cfgs p).N) ⊢ Pipeline.ΦA (cfgs p).spec c)
  | ⟨2, _⟩, c => ⟨hin2 (V7 m ρ) c, hout2 (V7 m ρ) c⟩
  | ⟨0, _⟩, _ | ⟨1, _⟩, _ | ⟨3, _⟩, _ => ⟨.rfl, .rfl⟩
theorem hbody : ∀ (p : Fin 4) (c : Dev nD), Pipeline.BodyObligationLoose (pdats m ρ p c) defs₀ Variants.none () Set.univ
  | ⟨0, _⟩, c => (body_obligation0 (V1 m ρ) c).loose
  | ⟨1, _⟩, c => (body_obligation1 (V5 m ρ) c).loose
  | ⟨2, _⟩, c => (body_obligation2 (V7 m ρ) c).loose
  | ⟨3, _⟩, c => (body_obligation3 (V9 m ρ) c).loose

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

set_option backward.isDefEq.respectTransparency.types false in
/-- Region `p` takes its arrays at their entry contents and returns them at their exit contents; every other buffer passes through. -/
def reg (p : Fin 4) : Pipeline.RegionSeg (pcfgs (F := F)) adm (pdats m ρ) () defs₀ 𝒱₀ L lv p where
  win := (launch p).win.to₀
  block_pos := (launch p).block_pos
  stage_whole := (launch p).stage_whole
  K := PEmpty
  osem k := k.elim
  ho := Pipeline.OwnSemFacts.none _
  hbody := hbody m ρ p
  hwaits := Pipeline.hwaits_of_owed_zero _ _ _ _ L lv p fun c => (plain m ρ p c).2.2.1
  pre c := iprop(StableHlo.held (c : Thread nD τ) (Pipeline.ucRefs τ sig) (Wi m ρ p c) ∗ R c)
  post c := iprop(StableHlo.held (c : Thread nD τ) (Pipeline.ucRefs τ sig) (Wo m ρ p c) ∗ R c)
  X c := iprop(∃ r, prngReg c r)
  Y c := iprop(∃ r, prngReg c r)
  Z c := Pipeline.unscopedRest (cfgs p).spec c fun b => Wi m ρ p c b
  hentry c := by
    rw [Pipeline.ownSems0_none]
    have hsplit := Pipeline.arrays_of_unscopedBufs (p := p) (pcfgs (F := F)) adm (pdats m ρ) (launch p).win (launch p).arr_whole c
      ((pdats m ρ p c).share_full (plain m ρ p c).1) (fun b => Wi m ρ p c b) (plain m ρ p c).2.1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(plain m ρ p c).2.2.1]
      icases HO with ⟨%W, HO⟩; iexists W; isplitr; · ipureintro; exact fun x _ => Or.inl ((plain m ρ p c).2.2.2 x)
      iexact HO
    isplitl [Hp]; · iexact Hp
    iexact Hrest
  hin c := by
    refine .trans ?_ (hΦ m ρ p c).1
    unfold Pipeline.ΦA
    iintro ⟨Hp, -, Hr⟩
    isplitl [Hr]; · iexact Hr
    iexact Hp
  hout c := by
    rw [Pipeline.ownSems0_none]
    refine (hΦ m ρ p c).2.trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      (launch p).win (launch p).arr_whole c (pdats m ρ) ((pdats m ρ p c).share_full (plain m ρ p c).1)
      (fun b => Wi m ρ p c b) (fun b => Wo m ρ p c b) ((pdats m ρ p c).arrAt · (cfgs p).N) (fun w => (Wo_arr m ρ p c w).symm)
      fun b hb => Wo_of_ne m ρ p c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(plain m ρ p c).2.2.1]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ 0),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg m ρ 1),
    .host (hseg hostOps2 hostOps2_sub hostOps2_fresh (W6 m ρ)),
    .region (reg m ρ 2),
    .host (hseg hostOps3 hostOps3_sub hostOps3_fresh (W8 m ρ)),
    .region (reg m ρ 3) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W10 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- No host stretch writes `b`, and a region holds `b`, if at all, through an input window. -/
abbrev Keeps (b : Ref sig .tc) : Prop :=
  ¬ (Proc.devRef .tc b : DevRef τ sig).isScoped ∧ b ∉ hostOps0_W ∧ b ∉ hostOps1_W ∧ b ∉ hostOps1_1_W ∧ b ∉ hostOps1_2_W
    ∧ b ∉ hostOps2_W ∧ b ∉ hostOps3_W
    ∧ ∀ (p : Fin 4) (w : Fin (cfgs p).W), Pipeline.arrRef (cfgs p).spec w = b → ((cfgs p).win w).isOut = false

/-- An input window's array leaves its region as it entered, and so does a buffer that is no window's array. -/
theorem Wo_keep (p : Fin 4) (c : Dev nD) (b : Ref sig .tc)
    (h : ∀ w, Pipeline.arrRef (cfgs p).spec w = b → ((cfgs p).win w).isOut = false) :
    Wo m ρ p c (Proc.devRef .tc b) = Wi m ρ p c (Proc.devRef .tc b) := by
  by_cases hw : ∃ w, Pipeline.arrRef (cfgs p).spec w = b
  · obtain ⟨w, rfl⟩ := hw
    exact (Wo_arr m ρ p c w).trans (((pdats m ρ p c).arrAt_in w (h w rfl) _).trans ((plain m ρ p c).2.1 w))
  · exact Wo_of_ne m ρ p c b fun w e => hw ⟨w, e⟩

abbrev Ends (c : Dev nD) (b : Ref sig .tc) (W : Dev nD → Valuation τ sig (Elt F)) : Prop :=
  W c (Proc.devRef .tc b) = m ((c.tc : Thread nD τ).loc b)

/-- A kept reference holds its launch contents at every boundary: each stretch and each region leaves it as found. -/
theorem kept (c : Dev nD) (b : Ref sig .tc) : Keeps b → Ends m c b (W1 m ρ) ∧ Ends m c b (W2 m ρ) ∧ Ends m c b (W3 m ρ)
    ∧ Ends m c b (W4 m ρ) ∧ Ends m c b (W5 m ρ) ∧ Ends m c b (W6 m ρ) ∧ Ends m c b (W7 m ρ) ∧ Ends m c b (W8 m ρ)
    ∧ Ends m c b (W9 m ρ) ∧ Ends m c b (W10 m ρ)
  | ⟨_, h0, h1, h2, h3, h4, h5, hk⟩ =>
    have e1 := W1_of m ρ c b h0
    have e2 := (Wo_keep m ρ 0 c b (hk 0)).trans e1
    have e3 := (W3_of m ρ c b h1).trans e2
    have e4 := (W4_of m ρ c b h2).trans e3
    have e5 := (W5_of m ρ c b h3).trans e4
    have e6 := (Wo_keep m ρ 1 c b (hk 1)).trans e5
    have e7 := (W7_of m ρ c b h4).trans e6
    have e8 := (Wo_keep m ρ 2 c b (hk 2)).trans e7
    have e9 := (W9_of m ρ c b h5).trans e8
    ⟨e1, e2, e3, e4, e5, e6, e7, e8, e9, (Wo_keep m ρ 3 c b (hk 3)).trans e9⟩

theorem arg_end (c : Dev nD) {s : MemSt nD τ sig (Elt F)}
    (hs : ∀ b ∈ Pipeline.ucRefs τ sig, s.mem ((c : Thread nD τ).1, b) = W10 m ρ c b) (b : Ref sig .tc) (h : Keeps b) :
    s.mem ((c.tc : Thread nD τ).loc b) = m ((c.tc : Thread nD τ).loc b) :=
  (hs _ (mem_uc b h.1)).trans (kept m ρ c b h).2.2.2.2.2.2.2.2.2

end Cert.Kernel.Hand

end
-- ==== Proof.KI.R0.lean ====
import proofs.«424071_j18090402251221_1_alg».proof.Proof.Gen.KernelIdeal.Launch
import proofs.«424071_j18090402251221_1_alg».proof.Proof.Gen.KernelIdeal.Skeleton
import proofs.«424071_j18090402251221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

def out0_9 (x0 : Vec F S2000x128 .f32) (x1 : Vec F S128x128 .f32) (x2 : Vec F S1x128 .f32) : Vec F S2000x128 .f32 :=
  View.canon [⟨r0_0, k0_pay3 (View.ld x0 r0_0) (View.ld x1 r0_1) (View.ld x2 r0_2)⟩]

def out0_10 (x0 : Vec F S2000x128 .f32) (x3 : Vec F S128x128 .f32) (x4 : Vec F S1x128 .f32) : Vec F S2000x128 .f32 :=
  View.canon [⟨r0_0, k0_pay4 (View.ld x0 r0_0) (View.ld x3 r0_1) (View.ld x4 r0_2)⟩]

def out0_11 (x0 : Vec F S2000x128 .f32) (x5 : Vec F S128x128 .f32) (x6 : Vec F S1x128 .f32) : Vec F S2000x128 .f32 :=
  View.canon [⟨r0_0, k0_pay5 (View.ld x0 r0_0) (View.ld x5 r0_1) (View.ld x6 r0_2)⟩]

def out0_12 (x0 : Vec F S2000x128 .f32) (x7 : Vec F S128x128 .f32) (x8 : Vec F S1x128 .f32) : Vec F S2000x128 .f32 :=
  View.canon [⟨r0_0, k0_pay1 (k0_pay6 (View.ld x0 r0_0) (View.ld x7 r0_1)) (View.ld x8 r0_2)⟩]

/-- The one rectangle of the list is the whole shape, so the list covers every index. -/
theorem cover0_out (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t)
    | ⟨10, _⟩ => out0_10 (iblk0 V c 0 t) (iblk0 V c 3 t) (iblk0 V c 4 t)
    | ⟨11, _⟩ => out0_11 (iblk0 V c 0 t) (iblk0 V c 5 t) (iblk0 V c 6 t)
    | ⟨12, _⟩ => out0_12 (iblk0 V c 0 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_9 (c : Dev nD) (t : Fin cfg0.N) : (dat0 V c).after 9 t = out0_9 (iblk0 V c 0 t) (iblk0 V c 1 t) (iblk0 V c 2 t) := by dsimp only [dat0]
theorem after0_10 (c : Dev nD) (t : Fin cfg0.N) : (dat0 V c).after 10 t = out0_10 (iblk0 V c 0 t) (iblk0 V c 3 t) (iblk0 V c 4 t) := by dsimp only [dat0]
theorem after0_11 (c : Dev nD) (t : Fin cfg0.N) : (dat0 V c).after 11 t = out0_11 (iblk0 V c 0 t) (iblk0 V c 5 t) (iblk0 V c 6 t) := by dsimp only [dat0]
theorem after0_12 (c : Dev nD) (t : Fin cfg0.N) : (dat0 V c).after 12 t = out0_12 (iblk0 V c 0 t) (iblk0 V c 7 t) (iblk0 V c 8 t) := by dsimp only [dat0]

/-- The body returns every input block unchanged, so at each point an input holds its block of the array. -/
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ (∀ d, (dat0 V c).before 8 t d = iblk0 V c 8 t) := by
  refine ⟨?_, ?_, ?_, ?_, ?_, ?_, ?_, ?_, ?_⟩ <;>
    exact fun d => (Dat.before_in_eq_fetched _ _ rfl (fun _ => rfl) (fun _ _ _ => rfl) (fun _ => rfl) t d).trans rfl

set_option maxHeartbeats 4000000 in
/-- Each output is written once over its whole shape, so it ends at that payload of the input blocks; everything else comes back as found. -/
theorem body_obligation0 (c : Dev nD) : BodyObligation (dat0 (F := F) V c) (defs₀ (F := F)) Variants.none () Set.univ := fun t => by
  rw [bigSep_W0, bigSep_W0]
  show _ ⊢ wp frame _ _ (bodyAt0 t) _
  simp only [before0 V c t, bodyAt0, cc0__proj_kernel_eq_skeleton]
  dsimp only [dat0]
  unfold cc0__proj_kernel_skel
  simp only [k0_part1_eq_skeleton]; unfold k0_part1_skel
  unfold owns
  iintro ⟨HΦ, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, -, H9⟩, ⟨%d10, %f10, -, H10⟩, ⟨%d11, %f11, -, H11⟩, ⟨%d12, %f12, -, H12⟩⟩
  rw [← e0, ← e1, ← e2, ← e3, ← e4, ← e5, ← e6, ← e7, ← e8]
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr; swap; · iexact H9
    ipureintro; exact View.read_writes_eq_canon _ _ _ (cover0_out _)
  isplitl [H10]
  · iexists _; isplitr; swap; · iexact H10
    ipureintro; exact View.read_writes_eq_canon _ _ _ (cover0_out _)
  isplitl [H11]
  · iexists _; isplitr; swap; · iexact H11
    ipureintro; exact View.read_writes_eq_canon _ _ _ (cover0_out _)
  iexists _; isplitr; swap; · iexact H12
  ipureintro; exact View.read_writes_eq_canon _ _ _ (cover0_out _)

end Cert.KernelIdeal.Hand

end
-- ==== Proof.KI.R1.lean ====
import proofs.«424071_j18090402251221_1_alg».proof.Proof.Gen.KernelIdeal.Launch
import proofs.«424071_j18090402251221_1_alg».proof.Proof.Gen.KernelIdeal.Skeleton
import proofs.«424071_j18090402251221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

-- Window `w`'s block at point `t`, read off the array `V` gives it.
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x128 := Rect.unit (s := S4000x128) ![0, 0] S4000x128.size inb_S4000x128_S4000x128_0_0

-- The gate: the first payload of the first two blocks, laid over the whole output block.
def out1_3 (x0 x1 : Vec F S4000x128 .f32) : Vec F S4000x128 .f32 :=
  View.canon [⟨r1_0, k1_pay1 (View.ld x0 r1_0) (View.ld x1 r1_0)⟩]

-- The gated block: the second payload of the three blocks read.
def out1_4 (x0 x1 x2 : Vec F S4000x128 .f32) : Vec F S4000x128 .f32 :=
  View.canon [⟨r1_0, k1_pay2 (View.ld x0 r1_0) (View.ld x1 r1_0) (View.ld x2 r1_0)⟩]

-- Each input keeps its block; the outputs receive `out1_3` and `out1_4` of the input blocks.
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

-- The body leaves every input as it found it, so what an input holds before a point is what it holds after it.
theorem before1 (c : Dev nD) (t : Fin cfg1.N) :
    ∀ w : Fin cfg1.W, (cfg1.win w).isOut = false → ∀ d, (dat1 V c).before w t d = (dat1 V c).after w t
  | ⟨0, _⟩, _, d | ⟨1, _⟩, _, d | ⟨2, _⟩, _, d =>
    ((dat1 V c).before_in_eq_fetched _ rfl (fun _ => rfl) (fun _ _ _ => rfl) (fun _ => rfl) t d).trans rfl
  | ⟨3, _⟩, h, _ | ⟨4, _⟩, h, _ => nomatch h

-- The body reads the three input blocks and writes `out1_3`, `out1_4` of them over the whole output blocks; the rest passes through.
theorem body_obligation1 (c : Dev nD) : BodyObligation (dat1 (F := F) V c) (defs₀ (F := F)) Variants.none () Set.univ := fun t => by
  rw [bigSep_W1, bigSep_W1]
  simp (disch := exact rfl) only [before1 V c t]
  dsimp only [dat1]
  show _ ⊢ wp _ _ _ (bodyAt1 t) _
  simp only [bodyAt1, cc1__gate_kernel_eq_skeleton]; unfold cc1__gate_kernel_skel
  conv_lhs => unfold owns
  iintro ⟨HΦ, Ho, ⟨%_, %f0, %h0, H0⟩, ⟨%_, %f1, %h1, H1⟩, ⟨%_, %f2, %h2, H2⟩, ⟨%_, %f3, -, H3⟩, ⟨%_, %f4, -, H4⟩⟩
  rw [← h0, ← h1, ← h2]
  sl_exec
  sl_step
  iframe HΦ
  isplitl [Ho]; · iexact Ho
  isplitl [H0]; · iapply owns_intro $$ H0
  isplitl [H1]; · iapply owns_intro $$ H1
  isplitl [H2]; · iapply owns_intro $$ H2
  unfold owns
  isplitl [H3]
  · iexists _; isplitr; swap; · iexact H3
    ipureintro; exact View.read_writes_eq_canon _ _ _ (View.cover_of_tiled _ S4000x128.size (by rfl))
  iexists _; isplitr; swap; · iexact H4
  ipureintro; exact View.read_writes_eq_canon _ _ _ (View.cover_of_tiled _ S4000x128.size (by rfl))

end Cert.KernelIdeal.Hand

end
-- ==== Proof.KI.R2.lean ====
import proofs.«424071_j18090402251221_1_alg».proof.Proof.Gen.KernelIdeal.Launch
import proofs.«424071_j18090402251221_1_alg».proof.Proof.Gen.KernelIdeal.Skeleton
import proofs.«424071_j18090402251221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rS2 : Rect S1x128 := Rect.unit (s := S1x128) ![0, 0] S1x128.size inb_S1x128_S1x128_0_0
abbrev rB2 : Rect S2000x128 := Rect.unit (s := S2000x128) ![0, 0] S2000x128.size inb_S2000x128_S2000x128_0_0

theorem hz2 : (![0, 0] : Fin 2 → Nat) = fun _ => 0 := by funext a; fin_cases a <;> rfl

/-- The last store covers the whole shape, so whatever came before is overwritten. -/
theorem read_store_whole2 {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

abbrev cond2_1 (i : grid2.Coords) : Prop := (Scalar.cmpi .ne (Scalar.extui (Scalar.cmpi .eq (BitVec.ofNat 32 (i 0).val) 0#32)) 0#32) = 1#1
abbrev cond2_2 (i : grid2.Coords) : Prop := k2_cond2 i = 1#1

def acc2 (c : Dev nD) : (n : ℕ) → n < cfg2.N → Vec F S1x128 .f32 × Vec F S1x128 .f32
  | 0, h => (k2_pay6 (iblk2 V c 0 ⟨0, h⟩) (iblk2 V c 1 ⟨0, h⟩) (iblk2 V c 2 ⟨0, h⟩) k2_pay3, k2_pay7 (iblk2 V c 0 ⟨0, h⟩) (iblk2 V c 1 ⟨0, h⟩) (iblk2 V c 2 ⟨0, h⟩) k2_pay4)
  | n + 1, h => (k2_pay6 (iblk2 V c 0 ⟨n + 1, h⟩) (iblk2 V c 1 ⟨n + 1, h⟩) (iblk2 V c 2 ⟨n + 1, h⟩) (acc2 c n (Nat.lt_of_succ_lt h)).1, k2_pay7 (iblk2 V c 0 ⟨n + 1, h⟩) (iblk2 V c 1 ⟨n + 1, h⟩) (iblk2 V c 2 ⟨n + 1, h⟩) (acc2 c n (Nat.lt_of_succ_lt h)).2)

theorem acc2_succ (c : Dev nD) (n : ℕ) (h : n + 1 < cfg2.N) :
    acc2 V c (n + 1) h = (k2_pay6 (iblk2 V c 0 ⟨n + 1, h⟩) (iblk2 V c 1 ⟨n + 1, h⟩) (iblk2 V c 2 ⟨n + 1, h⟩) (acc2 V c n (Nat.lt_of_succ_lt h)).1, k2_pay7 (iblk2 V c 0 ⟨n + 1, h⟩) (iblk2 V c 1 ⟨n + 1, h⟩) (iblk2 V c 2 ⟨n + 1, h⟩) (acc2 V c n (Nat.lt_of_succ_lt h)).2) := rfl

abbrev scM2_0 : Memref sig .tc .vmem S1x128 .f32 := Memref.whole cc2_scratch0
abbrev scM2_1 : Memref sig .tc .vmem S1x128 .f32 := Memref.whole cc2_scratch1

def Phi2 (c : Dev nD) : (n : ℕ) → n ≤ cfg2.N → sProp 𝕄
  | 0, _ => Pipeline.ΦA spec2 c
  | n + 1, hn => iprop(owns (c : Thread nD τ) scM2_0 fullShare (acc2 V c n hn).1 ∗ owns (c : Thread nD τ) scM2_1 fullShare (acc2 V c n hn).2
      ∗ Pipeline.scopedRestBut spec2 c [cc2_scratch0, cc2_scratch1] ∗ (∃ r, prngReg c r))

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; try rfl

/-- Before a point both running rows are held, at anything at the first point and at the sums so far after it; either way this point's sums follow from them. -/
theorem Phi2_open (c : Dev nD) (t : Fin cfg2.N) :
    Phi2 V c t.val (Nat.le_of_lt t.isLt) ⊢ iprop(∃ s0 s1,
      ⌜(acc2 V c t.val t.isLt).1 = k2_pay6 (iblk2 V c 0 t) (iblk2 V c 1 t) (iblk2 V c 2 t) (if t.val = 0 then k2_pay3 else s0)
        ∧ (acc2 V c t.val t.isLt).2 = k2_pay7 (iblk2 V c 0 t) (iblk2 V c 1 t) (iblk2 V c 2 t) (if t.val = 0 then k2_pay4 else s1)⌝
      ∗ owns (c : Thread nD τ) scM2_0 fullShare s0 ∗ owns (c : Thread nD τ) scM2_1 fullShare s1
      ∗ Pipeline.scopedRestBut spec2 c [cc2_scratch0, cc2_scratch1] ∗ (∃ r, prngReg c r)) := by
  obtain ⟨_ | n, hn⟩ := t
  · show Pipeline.ΦA spec2 c ⊢ _
    rw [PhiA2_eq]
    iintro ⟨⟨⟨⟨%s0, H0⟩, ⟨%s1, H1⟩⟩, HR⟩, Hg⟩
    iexists s0, s1; isplitr; · ipureintro; exact ⟨rfl, rfl⟩
    iframe
  · rw [Phi2]; iintro H; iexists _, _; isplitr; swap; iexact H; ipureintro; exact ⟨rfl, rfl⟩

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => View.canon ([⟨rB2, k2_pay5 (iblk2 V c 0 t) (iblk2 V c 1 t) (iblk2 V c 2 t)⟩] : List (View.Piece (Elt F) S2000x128 .f32))
    | ⟨4, _⟩ => View.canon ([⟨rS2, k2_pay1 (acc2 V c t.val t.isLt).1⟩] : List (View.Piece (Elt F) S1x128 .f32))
    | ⟨5, _⟩ => View.canon ([⟨rS2, k2_pay2 (acc2 V c t.val t.isLt).1 (acc2 V c t.val t.isLt).2⟩] : List (View.Piece (Elt F) S1x128 .f32))
  Φ t := Phi2 V c t.val (Nat.le_of_lt_succ t.isLt)
  q _ := fullShare
  owed _ := 0

theorem A_eq2 (c : Dev nD) (w : Fin cfg2.W) : (dat2 V c).A w = V c (Pipeline.arrRef spec2 w) := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

theorem after2_3_pay (c : Dev nD) (t : Fin cfg2.N) : (dat2 V c).after 3 t = k2_pay5 (iblk2 V c 0 t) (iblk2 V c 1 t) (iblk2 V c 2 t) :=
  by dsimp only [dat2]; exact View.canon_unit_zero (S := S2000x128) hz2 _ _
theorem after2_4_pay (c : Dev nD) (t : Fin cfg2.N) : (dat2 V c).after 4 t = k2_pay1 (acc2 V c t.val t.isLt).1 :=
  by dsimp only [dat2]; exact View.canon_unit_zero (S := S1x128) hz2 _ _
theorem after2_5_pay (c : Dev nD) (t : Fin cfg2.N) : (dat2 V c).after 5 t = k2_pay2 (acc2 V c t.val t.isLt).1 (acc2 V c t.val t.isLt).2 :=
  by dsimp only [dat2]; exact View.canon_unit_zero (S := S1x128) hz2 _ _

/-- The body does not change its inputs, so at each point it finds what it leaves. -/
theorem before2 (c : Dev nD) (t : Fin cfg2.N) : ∀ (w : Fin cfg2.W) (_ : w.val < 3) (d), (dat2 V c).before w t d = (dat2 V c).after w t
  | ⟨0, _⟩, _, d | ⟨1, _⟩, _, d | ⟨2, _⟩, _, d =>
    (Dat.before_in_eq_fetched (dat2 V c) _ rfl (fun _ => rfl) (fun _ _ _ => rfl) (fun _ => rfl) t d).trans rfl
  | ⟨_ + 3, _⟩, h, _ => absurd h (Nat.not_lt.2 (Nat.le_add_left _ _))

theorem hcond2_1 : ∀ t : Fin cfg2.N, cond2_1 (grid2.coords t) ↔ t.val = 0 := by decide +kernel
theorem hcond2_2 : ∀ t : Fin cfg2.N, cond2_2 (grid2.coords t) ↔ t.val = 24 := by decide +kernel

/-- The two row outputs are written at the last point and at no other. -/
theorem sched2 : ∀ (t : Fin cfg2.N) (w : Fin cfg2.W), 4 ≤ w.val →
    (t.val ≠ 24 → cfg2.idle w (cfg2.grid.coords t) = true ∧ (cfg2.win w).flush t = false) ∧ (t.val = 24 → cfg2.idle w (cfg2.grid.coords t) = false) := by
  decide +kernel

/-- So a row output left at its new value at the last point, and as found elsewhere, is what the point must leave. -/
theorem leaves2 (c : Dev nD) (t : Fin cfg2.N) (w : Fin cfg2.W) (hw : 4 ≤ w.val) (d) (a) (ha : (dat2 V c).after w t = a) :
    owns (c : Thread nD τ) ((cfg2.win w).stage (cfg2.slots t w)) fullShare (if t.val = 24 then a else (dat2 V c).before w t d) ⊢ (dat2 V c).leavesExact w t := by
  obtain ⟨hi, hl⟩ := sched2 t w hw
  by_cases h : t.val = 24
  · unfold Dat.leavesExact; rw [if_pos h, ← ha, hl h] <;> exact .rfl
  · rw [if_neg h, Dat.leavesExact_idle _ w t (hi h).1 (hi h).2]; iintro H; iexists d; iexact H

set_option maxHeartbeats 1000000 in
/-- The raw block is stored; the running rows restart at the first point and take this point's column sums; at the last point the row outputs are stored from them, elsewhere they stay as found. -/
theorem body_obligation2 (c : Dev nD) : BodyObligation (dat2 (F := F) V c) (defs₀ (F := F)) Variants.none () Set.univ := fun t => by
  rw [bigSep_W2, bigSep_W2]
  rw [show (dat2 V c).owesAt () t.succ = (dat2 V c).owesAt () t.castSucc from rfl]
  rw [show (dat2 V c).Φ t.succ = Phi2 V c (t.val + 1) t.isLt from rfl, Phi2]
  simp only [before2 V c t 0 (by decide), before2 V c t 1 (by decide), before2 V c t 2 (by decide), after2_0, after2_1, after2_2, after2_3_pay]
  refine (sep_mono_left (Phi2_open V c t)).trans ?_
  show _ ⊢ wp _ _ _ (bodyAt2 t) _
  simp only [bodyAt2, cc2__stats_kernel_eq_skeleton]; unfold cc2__stats_kernel_skel
  simp only [k2_part1_eq_skeleton]; unfold k2_part1_skel
  conv_lhs => unfold owns
  iintro ⟨⟨%s0, %s1, %ha, ⟨%g0, %e0, HS0⟩, ⟨%g1, %e1, HS1⟩, HR, Hg⟩, Ho, ⟨%_, %f0, %h0, H0⟩, ⟨%_, %f1, %h1, H1⟩, ⟨%_, %f2, %h2, H2⟩, ⟨%_, %f3, -, H3⟩, ⟨%d4, %f4, %h4, H4⟩, ⟨%d5, %f5, %h5, H5⟩⟩
  subst e0 e1
  rw [← h0, ← h1, ← h2] at ha ⊢
  rw [ha.1, ha.2]
  by_cases hp1 : t.val = 0 <;> by_cases hp2 : t.val = 24 <;> first | (exfalso; omega) | skip
  all_goals
    (first | rw [if_pos hp1, if_pos hp1] | rw [if_neg hp1, if_neg hp1])
    sl_exec (disch := first | exact (hcond2_1 t).mpr hp1 | exact mt (hcond2_1 t).mp hp1 | exact (hcond2_2 t).mpr hp2 | exact mt (hcond2_2 t).mp hp2)
    sl_step
    iframe HR Hg Ho
    isplitl [HS0 HS1]; rotate_left; isplitl [H0]; rotate_left; isplitl [H1]; rotate_left; isplitl [H2]; rotate_left
    isplitl [H3]; rotate_left; isplitl [H4]; rotate_left
    all_goals (first | iapply (leaves2 V c t 4 (by decide) d4 _ (after2_4_pay V c t)) | iapply (leaves2 V c t 5 (by decide) d5 _ (after2_5_pay V c t)) | isplitl [HS0] | skip)
    all_goals (unfold owns; iexists _; isplitr; swap; iassumption; ipureintro)
    all_goals first | rfl | (rw [if_neg hp2]; assumption) | ((try simp only [if_pos hp2, ha.1, ha.2, if_neg hp1]); sl_unfold_words; simp only [View.readAt_eq_ld, View.ld_unit_zero (S := S2000x128) hz2, View.ld_unit_zero (S := S1x128) hz2, View.readCov_unit_zero (S := S1x128) _ hz2, read_store_whole2 (S := S2000x128) _ _ hz2, read_store_whole2 (S := S1x128) _ _ hz2])

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := by
  suffices h : ∀ n h, Phi2 V c (n + 1) h ⊢ (Pipeline.ΦA spec2 c : sProp 𝕄) from h 24 (Nat.le_refl _)
  intro n h; rw [Phi2, PhiA2_eq]
  iintro ⟨H0, H1, HR, Hg⟩
  iframe HR Hg
  isplitl [H0] <;> iexists _ <;> iassumption

end Cert.KernelIdeal.Hand

end
-- ==== Proof.KI.R3.lean ====
import proofs.«424071_j18090402251221_1_alg».proof.Proof.Gen.KernelIdeal.Launch
import proofs.«424071_j18090402251221_1_alg».proof.Proof.Gen.KernelIdeal.Skeleton
import proofs.«424071_j18090402251221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

-- Window `w`'s block at point `t`, read off the array `V` gives it.
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_row : Rect S1x128 := Rect.unit (s := S1x128) ![0, 0] S1x128.size inb_S1x128_S1x128_0_0
abbrev r3_blk : Rect S2000x128 := Rect.unit (s := S2000x128) ![0, 0] S2000x128.size inb_S2000x128_S2000x128_0_0

-- The normalised block: the payload of the six blocks read, laid over the whole output block.
def out3_6 (x0 : Vec F S2000x128 .f32) (x1 x2 x3 x4 : Vec F S1x128 .f32) (x5 : Vec F S2000x128 .f32) : Vec F S2000x128 .f32 :=
  View.canon [⟨r3_blk, k3_pay1 (View.ld x1 r3_row) (View.ld x2 r3_row) (View.ld x0 r3_blk) (View.ld x3 r3_row) (View.ld x4 r3_row) (View.ld x5 r3_blk)⟩]

-- Each input keeps its block; the output receives `out3_6` of the six input blocks.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

-- The body leaves every input as it found it, so what an input holds before a point is what it holds after it.
theorem before3 (c : Dev nD) (t : Fin cfg3.N) :
    ∀ w : Fin cfg3.W, (cfg3.win w).isOut = false → ∀ d, (dat3 V c).before w t d = (dat3 V c).after w t
  | ⟨0, _⟩, _, d | ⟨1, _⟩, _, d | ⟨2, _⟩, _, d | ⟨3, _⟩, _, d | ⟨4, _⟩, _, d | ⟨5, _⟩, _, d =>
    ((dat3 V c).before_in_eq_fetched _ rfl (fun _ => rfl) (fun _ _ _ => rfl) (fun _ => rfl) t d).trans rfl
  | ⟨6, _⟩, h, _ => nomatch h

-- The body reads the six input blocks and writes `out3_6` of them over the whole output block; the rest passes through.
theorem body_obligation3 (c : Dev nD) : BodyObligation (dat3 (F := F) V c) (defs₀ (F := F)) Variants.none () Set.univ := fun t => by
  rw [bigSep_W3, bigSep_W3]
  simp (disch := exact rfl) only [before3 V c t]
  dsimp only [dat3]
  show _ ⊢ wp _ _ _ (bodyAt3 t) _
  simp only [bodyAt3, cc3__norm_kernel_eq_skeleton]; unfold cc3__norm_kernel_skel
  conv_lhs => unfold owns
  iintro ⟨HΦ, Ho, ⟨%_, %f0, %h0, H0⟩, ⟨%_, %f1, %h1, H1⟩, ⟨%_, %f2, %h2, H2⟩, ⟨%_, %f3, %h3, H3⟩, ⟨%_, %f4, %h4, H4⟩, ⟨%_, %f5, %h5, H5⟩, ⟨%_, %f6, -, H6⟩⟩
  rw [← h0, ← h1, ← h2, ← h3, ← h4, ← h5]
  sl_exec
  sl_step
  iframe HΦ
  isplitl [Ho]; · iexact Ho
  isplitl [H0]; · iapply owns_intro $$ H0
  isplitl [H1]; · iapply owns_intro $$ H1
  isplitl [H2]; · iapply owns_intro $$ H2
  isplitl [H3]; · iapply owns_intro $$ H3
  isplitl [H4]; · iapply owns_intro $$ H4
  isplitl [H5]; · iapply owns_intro $$ H5
  unfold owns; iexists _; isplitr; swap; · iexact H6
  ipureintro; exact View.read_writes_eq_canon _ _ _ (View.cover_of_tiled _ S2000x128.size (by rfl))

end Cert.KernelIdeal.Hand

end
-- ==== Proof.KI.Run.lean ====
import proofs.«424071_j18090402251221_1_alg».proof.Proof.KI.R0
import proofs.«424071_j18090402251221_1_alg».proof.Proof.KI.R1
import proofs.«424071_j18090402251221_1_alg».proof.Proof.KI.R2
import proofs.«424071_j18090402251221_1_alg».proof.Proof.KI.R3
import proofs.«424071_j18090402251221_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

abbrev W4 : Dev nD → Valuation τ sig (Elt F) := fun c => StableHlo.after hostOps1_1 (W3 m ρ c)
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h

abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h

def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) :=
  Pipeline.withArrays_of_ne spec1 c _ _ b hb

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h

def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) :=
  Pipeline.withArrays_of_ne spec2 c _ _ b hb

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb

abbrev Wi : Fin 4 → Dev nD → Valuation τ sig (Elt F)
  | ⟨0, _⟩ => W1 m ρ | ⟨1, _⟩ => W5 m ρ | ⟨2, _⟩ => W7 m ρ | ⟨3, _⟩ => W9 m ρ
abbrev Wo : Fin 4 → Dev nD → Valuation τ sig (Elt F)
  | ⟨0, _⟩ => W2 m ρ | ⟨1, _⟩ => W6 m ρ | ⟨2, _⟩ => W8 m ρ | ⟨3, _⟩ => W10 m ρ
def pdats : (p : Fin 4) → (c : Dev nD) → Dat τ (Elt F) Unit ℕ (UR sig nD τ) ℕ (cfgs p) c
  | ⟨0, _⟩ => dat0 (V1 m ρ) | ⟨1, _⟩ => dat1 (V5 m ρ) | ⟨2, _⟩ => dat2 (V7 m ρ) | ⟨3, _⟩ => dat3 (V9 m ρ)
theorem launch : ∀ p : Fin 4, Pipeline.LaunchFacts (nD := nD) (τ := τ) cfgs p
  | ⟨0, _⟩ => launch0 | ⟨1, _⟩ => launch1 | ⟨2, _⟩ => launch2 | ⟨3, _⟩ => launch3
theorem Wo_arr : ∀ (p : Fin 4) (c : Dev nD) (w : Fin (cfgs p).W),
    Wo m ρ p c (Proc.devRef .tc (Pipeline.arrRef (cfgs p).spec w)) = (pdats m ρ p c).arrAt w (cfgs p).N
  | ⟨0, _⟩ => W2_arr m ρ | ⟨1, _⟩ => W6_arr m ρ | ⟨2, _⟩ => W8_arr m ρ | ⟨3, _⟩ => W10_arr m ρ
theorem Wo_of_ne : ∀ (p : Fin 4) (c : Dev nD) (b : Ref sig .tc), (∀ w, Pipeline.arrRef (cfgs p).spec w ≠ b) →
    Wo m ρ p c (Proc.devRef .tc b) = Wi m ρ p c (Proc.devRef .tc b)
  | ⟨0, _⟩ => W2_of_ne m ρ | ⟨1, _⟩ => W6_of_ne m ρ | ⟨2, _⟩ => W8_of_ne m ρ | ⟨3, _⟩ => W10_of_ne m ρ
theorem plain : ∀ (p : Fin 4) (c : Dev nD), (∀ w, (pdats m ρ p c).q w = fullShare)
    ∧ (∀ w, (pdats m ρ p c).A w = Wi m ρ p c (Proc.devRef .tc (Pipeline.arrRef (cfgs p).spec w)))
    ∧ (∀ t, (pdats m ρ p c).owed t = 0) ∧ ∀ x, x ∈ (pdats m ρ p c).recorded 0
  | ⟨0, _⟩, _ | ⟨1, _⟩, _ | ⟨2, _⟩, _ | ⟨3, _⟩, _ => ⟨fun _ => rfl, fun _ => rfl, fun _ => rfl, fun _ => trivial⟩
theorem hΦ : ∀ (p : Fin 4) (c : Dev nD), (Pipeline.ΦA (cfgs p).spec c ⊢ (pdats m ρ p c).Φ 0)
    ∧ ((pdats m ρ p c).Φ (Fin.last (cfgs p).N) ⊢ Pipeline.ΦA (cfgs p).spec c)
  | ⟨2, _⟩, c => ⟨hin2 (V7 m ρ) c, hout2 (V7 m ρ) c⟩
  | ⟨0, _⟩, _ | ⟨1, _⟩, _ | ⟨3, _⟩, _ => ⟨.rfl, .rfl⟩
theorem hbody : ∀ (p : Fin 4) (c : Dev nD), Pipeline.BodyObligationLoose (pdats m ρ p c) defs₀ Variants.none () Set.univ
  | ⟨0, _⟩, c => (body_obligation0 (V1 m ρ) c).loose
  | ⟨1, _⟩, c => (body_obligation1 (V5 m ρ) c).loose
  | ⟨2, _⟩, c => (body_obligation2 (V7 m ρ) c).loose
  | ⟨3, _⟩, c => (body_obligation3 (V9 m ρ) c).loose

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

set_option backward.isDefEq.respectTransparency.types false in
/-- Region `p` takes its arrays at their entry contents and returns them at their exit contents; every other buffer passes through. -/
def reg (p : Fin 4) : Pipeline.RegionSeg (pcfgs (F := F)) adm (pdats m ρ) () defs₀ 𝒱₀ L lv p where
  win := (launch p).win.to₀
  block_pos := (launch p).block_pos
  stage_whole := (launch p).stage_whole
  K := PEmpty
  osem k := k.elim
  ho := Pipeline.OwnSemFacts.none _
  hbody := hbody m ρ p
  hwaits := Pipeline.hwaits_of_owed_zero _ _ _ _ L lv p fun c => (plain m ρ p c).2.2.1
  pre c := iprop(StableHlo.held (c : Thread nD τ) (Pipeline.ucRefs τ sig) (Wi m ρ p c) ∗ R c)
  post c := iprop(StableHlo.held (c : Thread nD τ) (Pipeline.ucRefs τ sig) (Wo m ρ p c) ∗ R c)
  X c := iprop(∃ r, prngReg c r)
  Y c := iprop(∃ r, prngReg c r)
  Z c := Pipeline.unscopedRest (cfgs p).spec c fun b => Wi m ρ p c b
  hentry c := by
    rw [Pipeline.ownSems0_none]
    have hsplit := Pipeline.arrays_of_unscopedBufs (p := p) (pcfgs (F := F)) adm (pdats m ρ) (launch p).win (launch p).arr_whole c
      ((pdats m ρ p c).share_full (plain m ρ p c).1) (fun b => Wi m ρ p c b) (plain m ρ p c).2.1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(plain m ρ p c).2.2.1]
      icases HO with ⟨%W, HO⟩; iexists W; isplitr; · ipureintro; exact fun x _ => Or.inl ((plain m ρ p c).2.2.2 x)
      iexact HO
    isplitl [Hp]; · iexact Hp
    iexact Hrest
  hin c := by
    refine .trans ?_ (hΦ m ρ p c).1
    unfold Pipeline.ΦA
    iintro ⟨Hp, -, Hr⟩
    isplitl [Hr]; · iexact Hr
    iexact Hp
  hout c := by
    rw [Pipeline.ownSems0_none]
    refine (hΦ m ρ p c).2.trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      (launch p).win (launch p).arr_whole c (pdats m ρ) ((pdats m ρ p c).share_full (plain m ρ p c).1)
      (fun b => Wi m ρ p c b) (fun b => Wo m ρ p c b) ((pdats m ρ p c).arrAt · (cfgs p).N) (fun w => (Wo_arr m ρ p c w).symm)
      fun b hb => Wo_of_ne m ρ p c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(plain m ρ p c).2.2.1]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ 0),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg m ρ 1),
    .host (hseg hostOps2 hostOps2_sub hostOps2_fresh (W6 m ρ)),
    .region (reg m ρ 2),
    .host (hseg hostOps3 hostOps3_sub hostOps3_fresh (W8 m ρ)),
    .region (reg m ρ 3) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W10 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- No host stretch writes `b`, and a region holds `b`, if at all, through an input window. -/
abbrev Keeps (b : Ref sig .tc) : Prop :=
  ¬ (Proc.devRef .tc b : DevRef τ sig).isScoped ∧ b ∉ hostOps0_W ∧ b ∉ hostOps1_W ∧ b ∉ hostOps1_1_W ∧ b ∉ hostOps1_2_W
    ∧ b ∉ hostOps2_W ∧ b ∉ hostOps3_W
    ∧ ∀ (p : Fin 4) (w : Fin (cfgs p).W), Pipeline.arrRef (cfgs p).spec w = b → ((cfgs p).win w).isOut = false

/-- An input window's array leaves its region as it entered, and so does a buffer that is no window's array. -/
theorem Wo_keep (p : Fin 4) (c : Dev nD) (b : Ref sig .tc)
    (h : ∀ w, Pipeline.arrRef (cfgs p).spec w = b → ((cfgs p).win w).isOut = false) :
    Wo m ρ p c (Proc.devRef .tc b) = Wi m ρ p c (Proc.devRef .tc b) := by
  by_cases hw : ∃ w, Pipeline.arrRef (cfgs p).spec w = b
  · obtain ⟨w, rfl⟩ := hw
    exact (Wo_arr m ρ p c w).trans (((pdats m ρ p c).arrAt_in w (h w rfl) _).trans ((plain m ρ p c).2.1 w))
  · exact Wo_of_ne m ρ p c b fun w e => hw ⟨w, e⟩

abbrev Ends (c : Dev nD) (b : Ref sig .tc) (W : Dev nD → Valuation τ sig (Elt F)) : Prop :=
  W c (Proc.devRef .tc b) = m ((c.tc : Thread nD τ).loc b)

/-- A kept reference holds its launch contents at every boundary: each stretch and each region leaves it as found. -/
theorem kept (c : Dev nD) (b : Ref sig .tc) : Keeps b → Ends m c b (W1 m ρ) ∧ Ends m c b (W2 m ρ) ∧ Ends m c b (W3 m ρ)
    ∧ Ends m c b (W4 m ρ) ∧ Ends m c b (W5 m ρ) ∧ Ends m c b (W6 m ρ) ∧ Ends m c b (W7 m ρ) ∧ Ends m c b (W8 m ρ)
    ∧ Ends m c b (W9 m ρ) ∧ Ends m c b (W10 m ρ)
  | ⟨_, h0, h1, h2, h3, h4, h5, hk⟩ =>
    have e1 := W1_of m ρ c b h0
    have e2 := (Wo_keep m ρ 0 c b (hk 0)).trans e1
    have e3 := (W3_of m ρ c b h1).trans e2
    have e4 := (W4_of m ρ c b h2).trans e3
    have e5 := (W5_of m ρ c b h3).trans e4
    have e6 := (Wo_keep m ρ 1 c b (hk 1)).trans e5
    have e7 := (W7_of m ρ c b h4).trans e6
    have e8 := (Wo_keep m ρ 2 c b (hk 2)).trans e7
    have e9 := (W9_of m ρ c b h5).trans e8
    ⟨e1, e2, e3, e4, e5, e6, e7, e8, e9, (Wo_keep m ρ 3 c b (hk 3)).trans e9⟩

theorem arg_end (c : Dev nD) {s : MemSt nD τ sig (Elt F)}
    (hs : ∀ b ∈ Pipeline.ucRefs τ sig, s.mem ((c : Thread nD τ).1, b) = W10 m ρ c b) (b : Ref sig .tc) (h : Keeps b) :
    s.mem ((c.tc : Thread nD τ).loc b) = m ((c.tc : Thread nD τ).loc b) :=
  (hs _ (mem_uc b h.1)).trans (kept m ρ c b h).2.2.2.2.2.2.2.2.2

end Cert.KernelIdeal.Hand

end
-- ==== Proof.Ref.Stages.lean ====
import proofs.«424071_j18090402251221_1_alg».proof.ReferenceIdeal

noncomputable section

namespace Cert.ReferenceIdeal.Stages

open Idealize.ShloMosaic Cert.ReferenceIdeal
open Cert.ReferenceIdeal.Facts₀ Cert.ReferenceIdeal.Facts

variable {F : FTy → Type} [FloatOps F] [Cert.ReferenceIdeal.Facts]

def bb (v : FVec F S128 .f32) : FVec F S50000x128 .f32 :=
  broadcastInDim S50000x128 ![0, 1] bcast_S1x128_S50000x128_0_1 (broadcastInDim S1x128 ![1] bcast_S128_S1x128_1 v)

def refProj (h : FVec F S50000x128 .f32) (w : FVec F S128x128 .f32) (b : FVec F S128 .f32) : FVec F S50000x128 .f32 :=
  addf (Host.dotGeneral dot_S50000x128_S128x128_S50000x128_1_0_0_1_n_n none h w) (bb b)

def refWrap (idx : IVec S600000 32) : IVec S600000 32 :=
  select (cmpi .slt idx (broadcastInDim S600000 ![] bcast_S_S600000 (constantI S_ 32 0#32)))
    (addi idx (broadcastInDim S600000 ![] bcast_S_S600000 (constantI S_ 32 50000#32))) idx

def refRows (t : FVec F S50000x128 .f32) (idx : IVec S600000 32) : FVec F S600000x128 .f32 :=
  Host.gather gather_S50000x128_S600000x1_S600000x128_1_0_n_n_0_1_1128 t
    (broadcastInDim S600000x1 ![0] bcast_S600000_S600000x1_0 (refWrap idx))

def ones : FVec F S600000x128 .f32 := broadcastInDim S600000x128 ![] bcast_S_S600000x128 (constant S_ .f32 0x3F800000#32)

def refSigma (d e : FVec F S600000x128 .f32) : FVec F S600000x128 .f32 :=
  Host.divf ones (addf ones (Host.exp (Host.negf (addf d e))))

def refAgg (u : FVec F S600000x128 .f32) (dst : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) u

def refRaw (ah num den : FVec F S50000x128 .f32) : FVec F S50000x128 .f32 :=
  addf ah (Host.divf num (addf den (broadcastInDim S50000x128 ![] bcast_S_S50000x128 (constant S_ .f32 0x358637BD#32))))

def colSum (x : FVec F S50000x128 .f32) : FVec F S128 .f32 :=
  Host.reduceAdd x (constant S_ .f32 0x00000000#32) reducesTo_S50000x128_S128_d0 h_S_

def refMean (raw : FVec F S50000x128 .f32) : FVec F S128 .f32 :=
  Host.divf (colSum raw) (broadcastInDim S128 ![] bcast_S_S128 (constant S_ .f32 0x47435000#32))

def refDev (raw : FVec F S50000x128 .f32) : FVec F S50000x128 .f32 :=
  subf raw (broadcastInDim S50000x128 ![0, 1] bcast_S1x128_S50000x128_0_1
    (Host.divf (broadcastInDim S1x128 ![1] bcast_S128_S1x128_1 (colSum raw))
      (broadcastInDim S1x128 ![] bcast_S_S1x128 (constant S_ .f32 0x47435000#32))))

def refCount : FVec F S_ .f32 :=
  subf (constant S_ .f32 0x47435000#32) (sitofp (F := F) .f32 (constantI S_ 32 0#32))

def refVar (raw : FVec F S50000x128 .f32) : FVec F S128 .f32 :=
  select (broadcastInDim S128 ![] bcast_S_S128 (cmpf (F := F) .ogt refCount (constant S_ .f32 0x00000000#32)))
    (Host.divf (colSum (mulf (refDev raw) (refDev raw))) (broadcastInDim S128 ![] bcast_S_S128 refCount))
    (broadcastInDim S128 ![] bcast_S_S128 (id (constant S_ .f32 0x7FC00000#32)))

def refOut (h raw : FVec F S50000x128 .f32) (mean var gamma beta : FVec F S128 .f32) : FVec F S50000x128 .f32 :=
  addf h (maximumf
    (addf (mulf (mulf (subf raw (bb mean))
        (bb (Host.rsqrt (addf var (broadcastInDim S128 ![] bcast_S_S128 (constant S_ .f32 0x3727C5AC#32))))))
      (bb gamma)) (bb beta))
    (broadcastInDim S50000x128 ![] bcast_S_S50000x128 (constant S_ .f32 0x00000000#32)))

def refRes (h : FVec F S50000x128 .f32) (src dst : IVec S600000 32)
    (aw : FVec F S128x128 .f32) (ab : FVec F S128 .f32) (bw : FVec F S128x128 .f32) (bv : FVec F S128 .f32)
    (dw : FVec F S128x128 .f32) (db : FVec F S128 .f32) (ew : FVec F S128x128 .f32) (eb : FVec F S128 .f32)
    (gamma beta : FVec F S128 .f32) : FVec F S50000x128 .f32 :=
  refOut h
    (refRaw (refProj h aw ab)
      (refAgg (mulf (refSigma (refRows (refProj h dw db) src) (refRows (refProj h ew eb) dst)) (refRows (refProj h bw bv) src)) dst)
      (refAgg (refSigma (refRows (refProj h dw db) src) (refRows (refProj h ew eb) dst)) dst))
    (refMean (refRaw (refProj h aw ab)
      (refAgg (mulf (refSigma (refRows (refProj h dw db) src) (refRows (refProj h ew eb) dst)) (refRows (refProj h bw bv) src)) dst)
      (refAgg (refSigma (refRows (refProj h dw db) src) (refRows (refProj h ew eb) dst)) dst)))
    (refVar (refRaw (refProj h aw ab)
      (refAgg (mulf (refSigma (refRows (refProj h dw db) src) (refRows (refProj h ew eb) dst)) (refRows (refProj h bw bv) src)) dst)
      (refAgg (refSigma (refRows (refProj h dw db) src) (refRows (refProj h ew eb) dst)) dst)))
    gamma beta

end Cert.ReferenceIdeal.Stages

end
-- ==== Proof.LibSeqLine.lean ====
import Idealize.ShloMosaic.Lib.StableHlo.Run
import Idealize.ShloMosaic.Lib.Pipeline.Regions

noncomputable section

namespace Cert.LibSeqLine

open Idealize.ShloMosaic Idealize.ShloMosaic.TcCoe Idealize.SL.Sem Idealize.ShloMosaic.StableHlo

section General

variable {nD : Nat} {τ : Topo} {sig : RefSig} {Val : EltTy → Type} {Λ : Labels}

theorem chain_map_seq : ∀ L : List (List (HloOp τ sig Val)),
    Pipeline.chain (L.map fun l => (seq l : Prog (TpuEff nD τ sig Val Λ .tc) PUnit)) = seq L.flatten
  | [] => rfl
  | l :: L => by rw [List.map_cons, Pipeline.chain_cons, List.flatten_cons, seq_append, chain_map_seq L]

theorem after_append : ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

theorem forall_flatten {α : Type} {p : α → Prop} (L : List (List α)) (h : ∀ l ∈ L, l.Forall p) : ∀ x ∈ L.flatten, p x := by
  intro x hx
  obtain ⟨l, hl, hxl⟩ := List.mem_flatten.mp hx
  exact (List.forall_iff_forall_mem.mp (h l hl)) x hxl

end General

end Cert.LibSeqLine

end
-- ==== Proof.Ref.Run.lean ====
import proofs.«424071_j18090402251221_1_alg».proof.ReferenceIdeal
import proofs.«424071_j18090402251221_1_alg».proof.Proof.Ref.Stages
import proofs.«424071_j18090402251221_1_alg».proof.Proof.LibSeqLine
import Idealize.ShloMosaic.Lib.StableHlo.Run
import Idealize.ShloMosaic.Lib.Pipeline.Regions

noncomputable section

namespace Cert.ReferenceIdeal.RefRun

open Cert.ReferenceIdeal Cert.ReferenceIdeal.Stages Idealize.ShloMosaic Idealize.ShloMosaic.TcCoe Idealize.SL.Sem
  Idealize.ShloMosaic.StableHlo
open Cert.ReferenceIdeal.Facts₀ Cert.ReferenceIdeal.Facts

variable {F : FTy → Type} [FloatOps F] [Cert.ReferenceIdeal.Facts]

def ops0 : List (HloOp τ sig (Elt F)) :=
  [ binary main_arg0 main_arg4 main_v0 (fun l r => Host.dotGeneral dot_S50000x128_S128x128_S50000x128_1_0_0_1_n_n none l r),
    unary main_arg5 main_v1 (broadcastInDim S1x128 ![1] bcast_S128_S1x128_1),
    unary main_v1 main_v2 (broadcastInDim S50000x128 ![0, 1] bcast_S1x128_S50000x128_0_1),
    binary main_v0 main_v2 main_v3 addf,
    binary main_arg0 main_arg6 main_v4 (fun l r => Host.dotGeneral dot_S50000x128_S128x128_S50000x128_1_0_0_1_n_n none l r),
    unary main_arg7 main_v5 (broadcastInDim S1x128 ![1] bcast_S128_S1x128_1),
    unary main_v5 main_v6 (broadcastInDim S50000x128 ![0, 1] bcast_S1x128_S50000x128_0_1),
    binary main_v4 main_v6 main_v7 addf,
    binary main_arg0 main_arg8 main_v8 (fun l r => Host.dotGeneral dot_S50000x128_S128x128_S50000x128_1_0_0_1_n_n none l r),
    unary main_arg9 main_v9 (broadcastInDim S1x128 ![1] bcast_S128_S1x128_1),
    unary main_v9 main_v10 (broadcastInDim S50000x128 ![0, 1] bcast_S1x128_S50000x128_0_1),
    binary main_v8 main_v10 main_v11 addf,
    binary main_arg0 main_arg10 main_v12 (fun l r => Host.dotGeneral dot_S50000x128_S128x128_S50000x128_1_0_0_1_n_n none l r),
    unary main_arg11 main_v13 (broadcastInDim S1x128 ![1] bcast_S128_S1x128_1),
    unary main_v13 main_v14 (broadcastInDim S50000x128 ![0, 1] bcast_S1x128_S50000x128_0_1),
    binary main_v12 main_v14 main_v15 addf,
    nullary main_c (constantI S_ 32 0#32),
    unary main_c main_v16 (broadcastInDim S600000 ![] bcast_S_S600000),
    binary main_arg2 main_v16 main_v17 (cmpi .slt),
    nullary main_c_0 (constantI S_ 32 50000#32),
    unary main_c_0 main_v18 (broadcastInDim S600000 ![] bcast_S_S600000),
    binary main_arg2 main_v18 main_v19 addi,
    ternary main_v17 main_v19 main_arg2 main_v20 select,
    unary main_v20 main_v21 (broadcastInDim S600000x1 ![0] bcast_S600000_S600000x1_0),
    binary main_v11 main_v21 main_v22 (fun x i => Host.gather gather_S50000x128_S600000x1_S600000x128_1_0_n_n_0_1_1128 x i),
    nullary main_c_1 (constantI S_ 32 0#32),
    unary main_c_1 main_v23 (broadcastInDim S600000 ![] bcast_S_S600000),
    binary main_arg3 main_v23 main_v24 (cmpi .slt),
    nullary main_c_2 (constantI S_ 32 50000#32),
    unary main_c_2 main_v25 (broadcastInDim S600000 ![] bcast_S_S600000),
    binary main_arg3 main_v25 main_v26 addi,
    ternary main_v24 main_v26 main_arg3 main_v27 select,
    unary main_v27 main_v28 (broadcastInDim S600000x1 ![0] bcast_S600000_S600000x1_0),
    binary main_v15 main_v28 main_v29 (fun x i => Host.gather gather_S50000x128_S600000x1_S600000x128_1_0_n_n_0_1_1128 x i),
    binary main_v22 main_v29 main_v30 addf,
    unary main_v30 main_v31 Host.negf,
    unary main_v31 main_v32 Host.exp,
    nullary main_cst (constant S_ .f32 0x3F800000#32),
    unary main_cst main_v33 (broadcastInDim S600000x128 ![] bcast_S_S600000x128),
    binary main_v33 main_v32 main_v34 addf,
    nullary main_cst_3 (constant S_ .f32 0x3F800000#32),
    unary main_cst_3 main_v35 (broadcastInDim S600000x128 ![] bcast_S_S600000x128),
    binary main_v35 main_v34 main_v36 Host.divf,
    nullary main_c_4 (constantI S_ 32 0#32),
    unary main_c_4 main_v37 (broadcastInDim S600000 ![] bcast_S_S600000),
    binary main_arg2 main_v37 main_v38 (cmpi .slt),
    nullary main_c_5 (constantI S_ 32 50000#32),
    unary main_c_5 main_v39 (broadcastInDim S600000 ![] bcast_S_S600000),
    binary main_arg2 main_v39 main_v40 addi,
    ternary main_v38 main_v40 main_arg2 main_v41 select,
    unary main_v41 main_v42 (broadcastInDim S600000x1 ![0] bcast_S600000_S600000x1_0),
    binary main_v7 main_v42 main_v43 (fun x i => Host.gather gather_S50000x128_S600000x1_S600000x128_1_0_n_n_0_1_1128 x i),
    binary main_v36 main_v43 main_v44 mulf,
    nullary main_cst_6 (constant S_ .f32 0x00000000#32),
    unary main_cst_6 main_v45 (broadcastInDim S50000x128 ![] bcast_S_S50000x128),
    unary main_arg3 main_v46 (broadcastInDim S600000x1 ![0] bcast_S600000_S600000x1_0),
    ternary main_v45 main_v46 main_v44 main_v47 (fun x i u => Host.scatterAdd scatter_S50000x128_S600000x1_S600000x128_1_0_0_1 x i u),
    nullary main_cst_7 (constant S_ .f32 0x00000000#32),
    unary main_cst_7 main_v48 (broadcastInDim S50000x128 ![] bcast_S_S50000x128),
    unary main_arg3 main_v49 (broadcastInDim S600000x1 ![0] bcast_S600000_S600000x1_0) ]

def ops1 : List (HloOp τ sig (Elt F)) :=
  [ ternary main_v48 main_v49 main_v36 main_v50 (fun x i u => Host.scatterAdd scatter_S50000x128_S600000x1_S600000x128_1_0_0_1 x i u),
    nullary main_cst_8 (constant S_ .f32 0x358637BD#32),
    unary main_cst_8 main_v51 (broadcastInDim S50000x128 ![] bcast_S_S50000x128),
    binary main_v50 main_v51 main_v52 addf,
    binary main_v47 main_v52 main_v53 Host.divf,
    binary main_v3 main_v53 main_v54 addf ]

abbrev sumRows : Vec F S50000x128 .f32 → Vec F S_ .f32 → Vec F S128 .f32 :=
  fun x v => Host.reduceAdd x v reducesTo_S50000x128_S128_d0 h_S_

def ops2 : List (HloOp τ sig (Elt F)) :=
  [ nullary main_cst_9 (constant S_ .f32 0x00000000#32),
    binary main_v54 main_cst_9 main_v55 sumRows,
    nullary main_cst_10 (constant S_ .f32 0x47435000#32),
    unary main_cst_10 main_v56 (broadcastInDim S128 ![] bcast_S_S128),
    binary main_v55 main_v56 main_v57 Host.divf,
    nullary main_c_11 (constantI S_ 32 0#32),
    nullary main_call0_cst (constant S_ .f32 0x00000000#32),
    binary main_v54 main_call0_cst main_call0_v0 sumRows,
    unary main_call0_v0 main_call0_v1 (broadcastInDim S1x128 ![1] bcast_S128_S1x128_1),
    nullary main_call0_cst_0 (constant S_ .f32 0x47435000#32),
    unary main_call0_cst_0 main_call0_v2 (broadcastInDim S1x128 ![] bcast_S_S1x128),
    binary main_call0_v1 main_call0_v2 main_call0_v3 Host.divf,
    unary main_call0_v3 main_call0_v4 (broadcastInDim S50000x128 ![0, 1] bcast_S1x128_S50000x128_0_1),
    binary main_v54 main_call0_v4 main_call0_v5 subf,
    binary main_call0_v5 main_call0_v5 main_call0_v6 mulf,
    unary main_c_11 main_call0_v7 (sitofp (F := F) .f32),
    nullary main_call0_cst_1 (constant S_ .f32 0x47435000#32),
    binary main_call0_cst_1 main_call0_v7 main_call0_v8 subf,
    nullary main_call0_cst_2 (constant S_ .f32 0x00000000#32),
    binary main_call0_v6 main_call0_cst_2 main_call0_v9 sumRows,
    unary main_call0_v8 main_call0_v10 (broadcastInDim S128 ![] bcast_S_S128),
    binary main_call0_v9 main_call0_v10 main_call0_v11 Host.divf,
    nullary main_call0_cst_3 (constant S_ .f32 0x00000000#32),
    binary main_call0_v8 main_call0_cst_3 main_call0_v12 (cmpf (F := F) .ogt),
    nullary main_call0_cst_4 (constant S_ .f32 0x7FC00000#32),
    unary main_call0_cst_4 main_call0_call0_v0 id,
    unary main_call0_call0_v0 main_call0_call0_v1 (broadcastInDim S128 ![] bcast_S_S128),
    ternary main_call0_v12 main_call0_v11 main_call0_call0_v1 main_v58 ((fun p a b => select (broadcastInDim S128 ![] bcast_S_S128 p) a b) : Vec F S_ .i1 → Vec F S128 .f32 → Vec F S128 .f32 → Vec F S128 .f32),
    unary main_v57 main_v59 (broadcastInDim S1x128 ![1] bcast_S128_S1x128_1),
    unary main_v59 main_v60 (broadcastInDim S50000x128 ![0, 1] bcast_S1x128_S50000x128_0_1),
    binary main_v54 main_v60 main_v61 subf,
    nullary main_cst_12 (constant S_ .f32 0x3727C5AC#32),
    unary main_cst_12 main_v62 (broadcastInDim S128 ![] bcast_S_S128),
    binary main_v58 main_v62 main_v63 addf,
    unary main_v63 main_v64 Host.rsqrt,
    unary main_v64 main_v65 (broadcastInDim S1x128 ![1] bcast_S128_S1x128_1),
    unary main_v65 main_v66 (broadcastInDim S50000x128 ![0, 1] bcast_S1x128_S50000x128_0_1),
    binary main_v61 main_v66 main_v67 mulf,
    unary main_arg12 main_v68 (broadcastInDim S1x128 ![1] bcast_S128_S1x128_1),
    unary main_v68 main_v69 (broadcastInDim S50000x128 ![0, 1] bcast_S1x128_S50000x128_0_1),
    binary main_v67 main_v69 main_v70 mulf,
    unary main_arg13 main_v71 (broadcastInDim S1x128 ![1] bcast_S128_S1x128_1),
    unary main_v71 main_v72 (broadcastInDim S50000x128 ![0, 1] bcast_S1x128_S50000x128_0_1),
    binary main_v70 main_v72 main_v73 addf,
    nullary main_call1_cst (constant S_ .f32 0x00000000#32),
    unary main_call1_cst main_call1_v0 (broadcastInDim S50000x128 ![] bcast_S_S50000x128),
    binary main_v73 main_call1_v0 main_v74 maximumf,
    binary main_arg0 main_v74 main_v75 addf ]

def ops : List (HloOp τ sig (Elt F)) := ops0 ++ (ops1 ++ ops2)

theorem main_part0_eq (c : Dev nD) : main_part0 (F := F) c = seq ops0 := by chain_rfl

theorem main_part1_eq (c : Dev nD) : main_part1 (F := F) c = seq (ops1 ++ ops2) := by chain_rfl

theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [ops, ops0, ops1, ops2]
  simp only [List.cons_append, List.nil_append, List.Forall, nullary_bufs_sub, unary_bufs_sub, binary_bufs_sub, ternary_bufs_sub, and_self]

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

theorem ops_eq_flatten : (ops : List (HloOp τ sig (Elt F))) = [ops0, ops1, ops2].flatten := by
  simp only [ops, List.flatten_cons, List.flatten_nil, List.append_nil]

theorem ops_fresh : ∀ op ∈ (ops : List (HloOp τ sig (Elt F))), op.fresh = ∅ := by
  rw [ops_eq_flatten]
  refine Cert.LibSeqLine.forall_flatten _ ?_
  intro l hl
  simp only [List.mem_cons, List.not_mem_nil, or_false] at hl
  rcases hl with rfl | rfl | rfl
  · exact ops0_fresh
  · exact ops1_fresh
  · exact ops2_fresh

section Fold

variable (V : Valuation τ sig (Elt F))

theorem r0_v3 : after ops0 V (main_v3 : DevRef τ sig) = refProj (V (main_arg0 : DevRef τ sig)) (V (main_arg4 : DevRef τ sig)) (V (main_arg5 : DevRef τ sig)) := by
  rw [ops0]; after_results_simp; rfl

theorem r0_v36 : after ops0 V (main_v36 : DevRef τ sig) = refSigma (refRows (refProj (V (main_arg0 : DevRef τ sig)) (V (main_arg8 : DevRef τ sig)) (V (main_arg9 : DevRef τ sig))) (V (main_arg2 : DevRef τ sig))) (refRows (refProj (V (main_arg0 : DevRef τ sig)) (V (main_arg10 : DevRef τ sig)) (V (main_arg11 : DevRef τ sig))) (V (main_arg3 : DevRef τ sig))) := by
  rw [ops0]; after_results_simp; rfl

theorem r0_v47 : after ops0 V (main_v47 : DevRef τ sig)
    = refAgg (mulf (refSigma (refRows (refProj (V (main_arg0 : DevRef τ sig)) (V (main_arg8 : DevRef τ sig)) (V (main_arg9 : DevRef τ sig))) (V (main_arg2 : DevRef τ sig))) (refRows (refProj (V (main_arg0 : DevRef τ sig)) (V (main_arg10 : DevRef τ sig)) (V (main_arg11 : DevRef τ sig))) (V (main_arg3 : DevRef τ sig)))) (refRows (refProj (V (main_arg0 : DevRef τ sig)) (V (main_arg6 : DevRef τ sig)) (V (main_arg7 : DevRef τ sig))) (V (main_arg2 : DevRef τ sig)))) (V (main_arg3 : DevRef τ sig)) := by
  rw [ops0]; after_results_simp; rfl

theorem r0_v48 : after ops0 V (main_v48 : DevRef τ sig)
    = broadcastInDim S50000x128 ![] bcast_S_S50000x128 (constant S_ .f32 0x00000000#32) := by
  rw [ops0]; after_results_simp

theorem r0_v49 : after ops0 V (main_v49 : DevRef τ sig)
    = broadcastInDim S600000x1 ![0] bcast_S600000_S600000x1_0 (V (main_arg3 : DevRef τ sig)) := by
  rw [ops0]; after_results_simp

abbrev written : List (Ref sig .tc) :=
  [
    main_v0, main_v1, main_v2, main_v3, main_v4, main_v5, main_v6, main_v7, main_v8, main_v9,
    main_v10, main_v11, main_v12, main_v13, main_v14, main_v15, main_c, main_v16, main_v17, main_c_0,
    main_v18, main_v19, main_v20, main_v21, main_v22, main_c_1, main_v23, main_v24, main_c_2, main_v25,
    main_v26, main_v27, main_v28, main_v29, main_v30, main_v31, main_v32, main_cst, main_v33, main_v34,
    main_cst_3, main_v35, main_v36, main_c_4, main_v37, main_v38, main_c_5, main_v39, main_v40, main_v41,
    main_v42, main_v43, main_v44, main_cst_6, main_v45, main_v46, main_v47, main_cst_7, main_v48, main_v49,
    main_v50, main_cst_8, main_v51, main_v52, main_v53, main_v54, main_cst_9, main_v55, main_cst_10, main_v56,
    main_v57, main_c_11, main_call0_cst, main_call0_v0, main_call0_v1, main_call0_cst_0, main_call0_v2, main_call0_v3, main_call0_v4, main_call0_v5,
    main_call0_v6, main_call0_v7, main_call0_cst_1, main_call0_v8, main_call0_cst_2, main_call0_v9, main_call0_v10, main_call0_v11, main_call0_cst_3, main_call0_v12,
    main_call0_cst_4, main_call0_call0_v0, main_call0_call0_v1, main_v58, main_v59, main_v60, main_v61, main_cst_12, main_v62, main_v63,
    main_v64, main_v65, main_v66, main_v67, main_v68, main_v69, main_v70, main_v71, main_v72, main_v73,
    main_call1_cst, main_call1_v0, main_v74, main_v75 ]

theorem ops_writes : (ops0 (F := F)).Forall (fun op => op.writes ⊆ (written.map (Proc.devRef (τ := τ) .tc)).toFinset) ∧ (ops1 (F := F)).Forall (fun op => op.writes ⊆ (written.map (Proc.devRef (τ := τ) .tc)).toFinset) ∧ (ops2 (F := F)).Forall (fun op => op.writes ⊆ (written.map (Proc.devRef (τ := τ) .tc)).toFinset) := by
  rw [ops0, ops1, ops2]
  simp only [List.Forall, nullary_writes, unary_writes, binary_writes, ternary_writes, Finset.singleton_subset_iff, List.mem_toFinset]
  and_intros <;> exact List.mem_map_of_mem (by decide)

theorem keep0 (r : Ref sig .tc) (hr : r ∉ written) : after ops0 V (r : DevRef τ sig) = V (r : DevRef τ sig) :=
  after_of_writes_sub ops0 V ops_writes.1 hr
theorem keep1 (r : Ref sig .tc) (hr : r ∉ written) : after ops1 V (r : DevRef τ sig) = V (r : DevRef τ sig) :=
  after_of_writes_sub ops1 V ops_writes.2.1 hr
theorem keep2 (r : Ref sig .tc) (hr : r ∉ written) : after ops2 V (r : DevRef τ sig) = V (r : DevRef τ sig) :=
  after_of_writes_sub ops2 V ops_writes.2.2 hr

theorem r1_v54 : after ops1 V (main_v54 : DevRef τ sig)
    = refRaw (V (main_v3 : DevRef τ sig)) (V (main_v47 : DevRef τ sig))
        (Host.scatterAdd scatter_S50000x128_S600000x1_S600000x128_1_0_0_1 (V (main_v48 : DevRef τ sig)) (V (main_v49 : DevRef τ sig)) (V (main_v36 : DevRef τ sig))) := by
  rw [ops1]; after_results_simp; rfl

theorem r2_v75 : after ops2 V (main_v75 : DevRef τ sig)
    = refOut (V (main_arg0 : DevRef τ sig)) (V (main_v54 : DevRef τ sig)) (refMean (V (main_v54 : DevRef τ sig))) (refVar (V (main_v54 : DevRef τ sig))) (V (main_arg12 : DevRef τ sig)) (V (main_arg13 : DevRef τ sig)) := by
  rw [ops2]; after_results_simp; rfl

end Fold

theorem res_eq (V : Valuation τ sig (Elt F)) :
    after ops V (main_v75 : DevRef τ sig)
      = refRes (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [ops, Cert.LibSeqLine.after_append, Cert.LibSeqLine.after_append, r2_v75, keep1 _ main_arg0 (by decide), keep1 _ main_arg12 (by decide), keep1 _ main_arg13 (by decide), r1_v54,
    r0_v3, r0_v47, r0_v48, r0_v49, r0_v36, keep0 _ main_arg0 (by decide), keep0 _ main_arg12 (by decide), keep0 _ main_arg13 (by decide)]
  rfl

theorem keep (V : Valuation τ sig (Elt F)) (r : Ref sig .tc) (hr : r ∉ written) : after ops V (r : DevRef τ sig) = V (r : DevRef τ sig) := by
  rw [ops, Cert.LibSeqLine.after_append, Cert.LibSeqLine.after_append, keep2 _ r hr, keep1 _ r hr, keep0 _ r hr]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v75)
        = refRes (m ((c.tc : Thread nD τ).loc main_arg0))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v75).trans (res_eq _), by and_intros <;> exact (h c _).trans (keep _ _ (by decide))⟩)
    (run_seq scopedRefs_eq scopedSems_eq defs main (fun _ => ops) main_eq (fun _ => ops_sub) m ρ (fun _ => ops_fresh))

end Cert.ReferenceIdeal.RefRun

end
-- ==== Proof.KI.Host.lean ====
import proofs.«424071_j18090402251221_1_alg».proof.Proof.Gen.KernelIdeal.Launch
import Idealize.ShloMosaic.Lib.StableHlo.Run

noncomputable section

namespace Cert.KernelIdeal.HostStages

open Idealize.ShloMosaic Idealize.ShloMosaic.StableHlo Cert.KernelIdeal Cert.KernelIdeal.Gen

variable {F : FTy → Type} [FloatOps F] [Cert.KernelIdeal.Facts]

def takeCol (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

def takeMask (idx : IVec S600000 32) : IVec S600000 1 :=
  Host.reduce IntOp.andi
    (andi (cmpi .sge (takeCol idx) (broadcastInDim S600000x1 ![] bcast_S_S600000x1 (constantI S_ 32 0#32)))
      (cmpi .sle (takeCol idx) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

def kTake (t : FVec F S50000x128 .f32) (idx : IVec S600000 32) : FVec F S600000x128 .f32 :=
  select (broadcastInDim S600000x128 ![0] bcast_S600000_S600000x128_0 (takeMask idx))
    (Host.gather gather_S50000x128_S600000x1_S600000x128_1_0_n_n_0_1_1128 t (takeCol idx))
    (broadcastInDim S600000x128 ![] bcast_S_S600000x128 (constant S_ .f32 0x7FC00000#32))

def kAgg (u : FVec F S600000x128 .f32) (dst : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) u

variable (W : Valuation τ sig (Elt F))

theorem host3_v16 : after hostOps3 W (Proc.devRef .tc main_v16) = shapeCast S1x128 (W (Proc.devRef .tc main_arg12)) shapeCasts_S128_S1x128 := by
  after_results; rfl
theorem host3_v17 : after hostOps3 W (Proc.devRef .tc main_v17) = shapeCast S1x128 (W (Proc.devRef .tc main_arg13)) shapeCasts_S128_S1x128 := by
  after_results; rfl

theorem host2_v11 : after hostOps2 W (Proc.devRef .tc main_v11) = kAgg (W (Proc.devRef .tc main_v8_1)) (W (Proc.devRef .tc main_arg3)) := by
  after_results; rfl
theorem host2_v14 : after hostOps2 W (Proc.devRef .tc main_v14) = kAgg (W (Proc.devRef .tc main_v8_0)) (W (Proc.devRef .tc main_arg3)) := by
  after_results; rfl

end Cert.KernelIdeal.HostStages

end
-- ==== Proof.KI.Chain.lean ====
import proofs.«424071_j18090402251221_1_alg».proof.Proof.KI.Run
import proofs.«424071_j18090402251221_1_alg».proof.Proof.KI.Host

noncomputable section

namespace Cert.KernelIdeal.Chain

open Cert.KernelIdeal Cert.KernelIdeal.Gen Cert.KernelIdeal.Hand Cert.KernelIdeal.HostStages
open Idealize.ShloMosaic Idealize.ShloMosaic.TcCoe Idealize.ShloMosaic.StableHlo

variable {F : FTy → Type} [FloatOps F]

theorem ofBuf_toBuf {Val : EltTy → Type} {T : BufTy} (r : Ref sig .tc) (e e' : r.ty = T) (d d' : r.space ≠ .host)
    (u u' : r.isScoped = false) (v : T.Contents Val) :
    (TRef.of r e d u).ofBuf ((TRef.of r e' d' u').toBuf v) = v := by
  subst e; rfl

section Takes
variable (W : Valuation τ sig (Elt F))

theorem host1_v5 : after hostOps1 W (Proc.devRef .tc main_v5) = kTake (F := F) (W (Proc.devRef .tc main_v4_2)) (W (Proc.devRef .tc main_arg2)) := by
  unfold kTake takeMask takeCol
  after_results_simp
  simp only [ofBuf_toBuf]
  have ea : (TRef.of main_arg2 : TRef sig ⟨S600000, .i32⟩).ofBuf (W (Proc.devRef .tc main_arg2)) = W (Proc.devRef .tc main_arg2) := rfl
  have et : (TRef.of main_v4_2 : TRef sig ⟨S50000x128, .f32⟩).ofBuf (W (Proc.devRef .tc main_v4_2)) = W (Proc.devRef .tc main_v4_2) := rfl
  have ey : ∀ X : (⟨S600000x128, .f32⟩ : BufTy).Contents (Elt F), (TRef.of main_v5 : TRef sig ⟨S600000x128, .f32⟩).toBuf X = X := fun _ => rfl
  rw [ey, ea, et]

theorem host1_1_v6 : after hostOps1_1 W (Proc.devRef .tc main_v6) = kTake (F := F) (W (Proc.devRef .tc main_v4_3)) (W (Proc.devRef .tc main_arg3)) := by
  unfold kTake takeMask takeCol
  after_results_simp
  simp only [ofBuf_toBuf]
  have ea : (TRef.of main_arg3 : TRef sig ⟨S600000, .i32⟩).ofBuf (W (Proc.devRef .tc main_arg3)) = W (Proc.devRef .tc main_arg3) := rfl
  have et : (TRef.of main_v4_3 : TRef sig ⟨S50000x128, .f32⟩).ofBuf (W (Proc.devRef .tc main_v4_3)) = W (Proc.devRef .tc main_v4_3) := rfl
  have ey : ∀ X : (⟨S600000x128, .f32⟩ : BufTy).Contents (Elt F), (TRef.of main_v6 : TRef sig ⟨S600000x128, .f32⟩).toBuf X = X := fun _ => rfl
  rw [ey, ea, et]

theorem host1_2_v7 : after hostOps1_2 W (Proc.devRef .tc main_v7) = kTake (F := F) (W (Proc.devRef .tc main_v4_1)) (W (Proc.devRef .tc main_arg2)) := by
  unfold kTake takeMask takeCol
  after_results_simp
  simp only [ofBuf_toBuf]
  have ea : (TRef.of main_arg2 : TRef sig ⟨S600000, .i32⟩).ofBuf (W (Proc.devRef .tc main_arg2)) = W (Proc.devRef .tc main_arg2) := rfl
  have et : (TRef.of main_v4_1 : TRef sig ⟨S50000x128, .f32⟩).ofBuf (W (Proc.devRef .tc main_v4_1)) = W (Proc.devRef .tc main_v4_1) := rfl
  have ey : ∀ X : (⟨S600000x128, .f32⟩ : BufTy).Contents (Elt F), (TRef.of main_v7 : TRef sig ⟨S600000x128, .f32⟩).toBuf X = X := fun _ => rfl
  rw [ey, ea, et]

end Takes

variable (m : (ℓ : Loc nD τ sig) → Buf (Elt F) ℓ) (ρ : Dev nD → PrngReg) (c : Dev nD)

theorem in0_x : Hand.V1 m ρ c main_arg0 = m ((c : Thread nD τ).loc main_arg0) :=
  (W1_of m ρ c main_arg0 (by decide)).trans <| rfl
theorem in0_w4 : Hand.V1 m ρ c main_arg4 = m ((c : Thread nD τ).loc main_arg4) :=
  (W1_of m ρ c main_arg4 (by decide)).trans <| rfl
theorem in0_w6 : Hand.V1 m ρ c main_arg6 = m ((c : Thread nD τ).loc main_arg6) :=
  (W1_of m ρ c main_arg6 (by decide)).trans <| rfl
theorem in0_w8 : Hand.V1 m ρ c main_arg8 = m ((c : Thread nD τ).loc main_arg8) :=
  (W1_of m ρ c main_arg8 (by decide)).trans <| rfl
theorem in0_w10 : Hand.V1 m ρ c main_arg10 = m ((c : Thread nD τ).loc main_arg10) :=
  (W1_of m ρ c main_arg10 (by decide)).trans <| rfl
theorem in0_b5 : Hand.V1 m ρ c main_v0 = shapeCast S1x128 (m ((c : Thread nD τ).loc main_arg5)) shapeCasts_S128_S1x128 :=
  by show after hostOps0 _ _ = _; after_results; rfl
theorem in0_b7 : Hand.V1 m ρ c main_v1 = shapeCast S1x128 (m ((c : Thread nD τ).loc main_arg7)) shapeCasts_S128_S1x128 :=
  by show after hostOps0 _ _ = _; after_results; rfl
theorem in0_b9 : Hand.V1 m ρ c main_v2 = shapeCast S1x128 (m ((c : Thread nD τ).loc main_arg9)) shapeCasts_S128_S1x128 :=
  by show after hostOps0 _ _ = _; after_results; rfl
theorem in0_b11 : Hand.V1 m ρ c main_v3 = shapeCast S1x128 (m ((c : Thread nD τ).loc main_arg11)) shapeCasts_S128_S1x128 :=
  by show after hostOps0 _ _ = _; after_results; rfl

theorem in1_d : Hand.V5 m ρ c main_v5 = kTake (F := F) (W2 m ρ c (Proc.devRef .tc main_v4_2)) (m ((c : Thread nD τ).loc main_arg2)) :=
  (W5_of m ρ c main_v5 (by decide)).trans <| (W4_of m ρ c main_v5 (by decide)).trans <| (host1_v5 (W2 m ρ c)).trans <|
    congrArg (kTake (F := F) _) (kept m ρ c main_arg2 (by decide)).2.1
theorem in1_e : Hand.V5 m ρ c main_v6 = kTake (F := F) (W2 m ρ c (Proc.devRef .tc main_v4_3)) (m ((c : Thread nD τ).loc main_arg3)) :=
  (W5_of m ρ c main_v6 (by decide)).trans <| (host1_1_v6 (W3 m ρ c)).trans <|
    congr (congrArg (kTake (F := F)) ((W3_of m ρ c main_v4_3 (by decide)))) (kept m ρ c main_arg3 (by decide)).2.2.1
theorem in1_b : Hand.V5 m ρ c main_v7 = kTake (F := F) (W2 m ρ c (Proc.devRef .tc main_v4_1)) (m ((c : Thread nD τ).loc main_arg2)) :=
  (host1_2_v7 (W4 m ρ c)).trans <|
    congr (congrArg (kTake (F := F)) ((W4_of m ρ c main_v4_1 (by decide)).trans <| (W3_of m ρ c main_v4_1 (by decide)))) (kept m ρ c main_arg2 (by decide)).2.2.2.1

theorem in2_a : Hand.V7 m ρ c main_v4_0 = W2 m ρ c (Proc.devRef .tc main_v4_0) :=
  (W7_of m ρ c main_v4_0 (by decide)).trans <| (W6_of_ne m ρ c main_v4_0 (by decide)).trans <| (W5_of m ρ c main_v4_0 (by decide)).trans <| (W4_of m ρ c main_v4_0 (by decide)).trans <| (W3_of m ρ c main_v4_0 (by decide))
theorem in2_num : Hand.V7 m ρ c main_v11 = kAgg (F := F) (W6 m ρ c (Proc.devRef .tc main_v8_1)) (m ((c : Thread nD τ).loc main_arg3)) :=
  (host2_v11 (W6 m ρ c)).trans <|
    congrArg (kAgg (F := F) (W6 m ρ c (Proc.devRef .tc main_v8_1))) (kept m ρ c main_arg3 (by decide)).2.2.2.2.2.1
theorem in2_den : Hand.V7 m ρ c main_v14 = kAgg (F := F) (W6 m ρ c (Proc.devRef .tc main_v8_0)) (m ((c : Thread nD τ).loc main_arg3)) :=
  (host2_v14 (W6 m ρ c)).trans <|
    congrArg (kAgg (F := F) (W6 m ρ c (Proc.devRef .tc main_v8_0))) (kept m ρ c main_arg3 (by decide)).2.2.2.2.2.1

theorem in3_raw : Hand.V9 m ρ c main_v15_0 = W8 m ρ c (Proc.devRef .tc main_v15_0) :=
  W9_of m ρ c main_v15_0 (by decide)
theorem in3_mean : Hand.V9 m ρ c main_v15_1 = W8 m ρ c (Proc.devRef .tc main_v15_1) :=
  W9_of m ρ c main_v15_1 (by decide)
theorem in3_var : Hand.V9 m ρ c main_v15_2 = W8 m ρ c (Proc.devRef .tc main_v15_2) :=
  W9_of m ρ c main_v15_2 (by decide)
theorem in3_g : Hand.V9 m ρ c main_v16 = shapeCast S1x128 (m ((c : Thread nD τ).loc main_arg12)) shapeCasts_S128_S1x128 :=
  (host3_v16 (W8 m ρ c)).trans <|
    congrArg (fun x => shapeCast S1x128 x shapeCasts_S128_S1x128) (kept m ρ c main_arg12 (by decide)).2.2.2.2.2.2.2.1
theorem in3_b : Hand.V9 m ρ c main_v17 = shapeCast S1x128 (m ((c : Thread nD τ).loc main_arg13)) shapeCasts_S128_S1x128 :=
  (host3_v17 (W8 m ρ c)).trans <|
    congrArg (fun x => shapeCast S1x128 x shapeCasts_S128_S1x128) (kept m ρ c main_arg13 (by decide)).2.2.2.2.2.2.2.1
theorem in3_h : Hand.V9 m ρ c main_arg0 = m ((c : Thread nD τ).loc main_arg0) :=
  (kept m ρ c main_arg0 (by decide)).2.2.2.2.2.2.2.2.1

theorem out0_ah : W2 m ρ c (Proc.devRef .tc main_v4_0) = (dat0 (Hand.V1 m ρ) c).arrAt 9 cfg0.N :=
  W2_arr m ρ c 9
theorem out0_bh : W2 m ρ c (Proc.devRef .tc main_v4_1) = (dat0 (Hand.V1 m ρ) c).arrAt 10 cfg0.N :=
  W2_arr m ρ c 10
theorem out0_dh : W2 m ρ c (Proc.devRef .tc main_v4_2) = (dat0 (Hand.V1 m ρ) c).arrAt 11 cfg0.N :=
  W2_arr m ρ c 11
theorem out0_eh : W2 m ρ c (Proc.devRef .tc main_v4_3) = (dat0 (Hand.V1 m ρ) c).arrAt 12 cfg0.N :=
  W2_arr m ρ c 12
theorem out1_sig : W6 m ρ c (Proc.devRef .tc main_v8_0) = (dat1 (Hand.V5 m ρ) c).arrAt 3 cfg1.N :=
  W6_arr m ρ c 3
theorem out1_wgt : W6 m ρ c (Proc.devRef .tc main_v8_1) = (dat1 (Hand.V5 m ρ) c).arrAt 4 cfg1.N :=
  W6_arr m ρ c 4
theorem out3 : W10 m ρ c (Proc.devRef .tc main_v18) = (dat3 (Hand.V9 m ρ) c).arrAt 6 cfg3.N :=
  W10_arr m ρ c 6

end Cert.KernelIdeal.Chain

end
-- ==== Proof.LibPlainDot.lean ====
import Idealize.ShloMosaic.PureOps.Ideal.Laws
import Idealize.ShloMosaic.Lib.ValueIdx

noncomputable section

open scoped BigOperators

namespace Cert.Lib

open Idealize.ShloMosaic Idealize.ShloMosaic.ValueIdx

structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

theorem PlainDot.rank_contr (hd : PlainDot d) : d.contr.rank = 1 := by
  rw [d.rank_contr, hd.lc]; rfl

/-- Once the six dimension lists are known, the contracted axis has size K and the free coordinates pass through, all by computation. -/
theorem PlainDot.coords (hd : PlainDot d) : d.contr.size ⟨0, by rw [hd.rank_contr]; exact Nat.one_pos⟩ = K
    ∧ ∀ (i : (⟨2, ![M, N]⟩ : Shape).Idx) (q : d.contr.Idx), (d.lhsIdx i q 0).val = (i 0).val ∧ (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  refine ⟨rfl, fun i q => ⟨?_, ?_⟩⟩
  · unfold DotDims.lhsIdx; rw [dif_neg (by simp), dif_pos (by simp)]; rfl
  · unfold DotDims.rhsIdx; rw [dif_neg (by simp), dif_pos (by simp)]; rfl

theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.coords.1).symm]
  refine Finset.sum_congr rfl fun k _ => ?_
  have hk := contrEquiv1_symm_val d K hd.rank_contr hd.coords.1 k
  generalize (contrEquiv1 d K hd.rank_contr hd.coords.1).symm k = q at hk ⊢
  have hf := hd.coords.2 (ix2 a b) q
  rw [show d.lhsIdx (ix2 a b) q = ix2 a k from funext fun x => Fin.ext (by
      match x with
      | ⟨0, _⟩ => exact hf.1
      | ⟨1, _⟩ => exact (d.lhsIdx_val_of_single hd.lc _ _).trans hk),
    show d.rhsIdx (ix2 a b) q = ix2 k b from funext fun x => Fin.ext (by
      match x with
      | ⟨0, _⟩ => exact (d.rhsIdx_val_of_single hd.rc _ _).trans hk
      | ⟨1, _⟩ => exact hf.2)]

theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.LibBlocks.lean ====
import Idealize.ShloMosaic.Lib.ValueIdx

namespace Cert.Lib

open Idealize.ShloMosaic Idealize.ShloMosaic.ValueIdx

theorem zero2 : (![0, 0] : Fin 2 → ℕ) = fun _ => 0 := funext fun a => by fin_cases a <;> rfl

variable {N n C : ℕ}

/-- Row r of a block of n rows that starts at row b · n is row b · n + r of the array, column for column. -/
theorem row_emb {off : Fin 2 → ℕ} {inb : ∀ a, off a + (![n, C] : Fin 2 → ℕ) a ≤ (⟨2, ![N, C]⟩ : Shape).size a} {b : ℕ}
    (h0 : off 0 = b * n) (h1 : off 1 = 0) (r : Fin n) :
    ∃ p : Fin N, p.val = b * n + r.val ∧ ∀ q : Fin C, (Rect.unit (s := ⟨2, ![N, C]⟩) off ![n, C] inb).emb (ix2 r q) = ix2 p q :=
  have h : off 0 + n ≤ N := inb 0
  ⟨⟨b * n + r.val, by have := r.isLt; omega⟩, rfl, fun q => funext fun a => Fin.ext <| by
    match a with
    | ⟨0, _⟩ => show off 0 + 1 * r.val = b * n + r.val; omega
    | ⟨1, _⟩ => show off 1 + 1 * q.val = q.val; omega⟩

/-- M blocks of n rows cover an array of at most M · n rows: row p lies in block p / n. -/
theorem cover_rows {M : ℕ} {off : Fin M → Fin 2 → ℕ}
    {inb : ∀ t a, off t a + (![n, C] : Fin 2 → ℕ) a ≤ (⟨2, ![N, C]⟩ : Shape).size a}
    (h0 : ∀ t, off t 0 = t.val * n) (h1 : ∀ t, off t 1 = 0) (hN : N ≤ n * M) {f : Fin M → Bool} (hf : ∀ t, f t = true) (i : (⟨2, ![N, C]⟩ : Shape).Idx) :
    ∃ t, f t = true ∧ i ∈ Finset.univ.map (Rect.unit (s := ⟨2, ![N, C]⟩) (off t) ![n, C] (inb t)).emb := by
  have hn : 0 < n := Nat.pos_of_ne_zero fun h => by subst h; have := idx2_lt0 i; omega
  obtain ⟨p, e, hp⟩ := row_emb (inb := inb ⟨(i 0).val / n, Nat.div_lt_of_lt_mul ((idx2_lt0 i).trans_le hN)⟩) (h0 _) (h1 _) ⟨(i 0).val % n, Nat.mod_lt _ hn⟩
  exact ⟨_, hf _, Finset.mem_map.mpr ⟨ix2 _ (i 1), Finset.mem_univ _,
    (hp _).trans ((congrArg (ix2 · (i 1)) (Fin.ext (e.trans (Nat.div_add_mod' _ _)))).trans (eq_ix2 i).symm)⟩⟩

end Cert.Lib
-- ==== Proof.KI.V0.lean ====
import proofs.«424071_j18090402251221_1_alg».proof.Proof.KI.R0
import proofs.«424071_j18090402251221_1_alg».proof.Proof.LibPlainDot
import proofs.«424071_j18090402251221_1_alg».proof.Proof.LibBlocks
import Idealize.ShloMosaic.Lib.Pipeline.Value

noncomputable section

open scoped BigOperators

namespace Cert.KernelIdeal.HandV0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- Row p of x against column q of w, plus entry q of the row b. -/
def projAt (x : S50000x128.Idx → EReal) (w : S128x128.Idx → EReal) (b : S1x128.Idx → EReal) (p : Fin 50000) (q : Fin 128) : EReal :=
  (∑ k : Fin 128, x (ix2 p k) * w (ix2 k q)) + b (ix2 0 q)

theorem projAt_def (x : S50000x128.Idx → EReal) (w : S128x128.Idx → EReal) (b : S1x128.Idx → EReal) (p : Fin 50000) (q : Fin 128) :
    projAt x w b p q = (∑ k : Fin 128, x (ix2 p k) * w (ix2 k q)) + b (ix2 0 q) := rfl

/-- A product accumulated from zero is the sum over the contracted coordinate, and the row x2 is repeated along the rows. -/
theorem out_apply (x0 : S2000x128.Idx → EReal) (x1 : S128x128.Idx → EReal) (x2 : S1x128.Idx → EReal) (r : Fin 2000) (q : Fin 128) :
    out0_9 (F := Ideal) x0 x1 x2 (ix2 r q) = (∑ k : Fin 128, x0 (ix2 r k) * x1 (ix2 k q)) + x2 (ix2 0 q) := by
  rw [out0_9, View.canon_unit_zero Cert.Lib.zero2, View.ld_unit_zero Cert.Lib.zero2, View.ld_unit_zero Cert.Lib.zero2, View.ld_unit_zero Cert.Lib.zero2, k0_pay3, shapeCast_self]
  exact congrArg₂ (· + ·) (Cert.Lib.PlainDot.matmul_zero_apply ⟨rfl, rfl, rfl, rfl, rfl, rfl⟩ none (k0_pay2 x0) (truncf .bf16 x1 bitsLt_bf16_f32) r q)
    (broadcastTo_apply x2 _ (ix2 r q) (ix2 (0 : Fin 1) q) fun a => by
      match a with
      | ⟨0, _⟩ => rfl
      | ⟨1, _⟩ => rfl)

variable (V : (c : Dev nD) → (b : Ref sig .tc) → Buf (Elt Ideal) ((c : Thread nD τ).loc b))

theorem idx0 : ∀ t : Fin cfg0.N, win0_0.index t 0 = t.val := (by decide +kernel : ∀ t : Fin grid0.N, _)

theorem row_emb (t : Fin cfg0.N) (r : Fin 2000) :
    ∃ p : Fin 50000, p.val = t.val * 2000 + r.val ∧ ∀ q : Fin 128, (win0_0.rect t).emb (ix2 r q) = ix2 p q :=
  Cert.Lib.row_emb (congrArg (· * 2000) (idx0 t)) rfl r

/-- A block that is its whole array sits in it index for index. -/
theorem whole128 (t : Fin cfg0.N) (y : S128x128.Idx) : (win0_1.rect t).emb y = y :=
  funext fun a => Fin.ext (win0_1.rect_emb_val_of_index_zero t a (congrFun Cert.Lib.zero2 a) y)

theorem whole1 (t : Fin cfg0.N) (y : S1x128.Idx) : (win0_2.rect t).emb y = y :=
  funext fun a => Fin.ext (win0_2.rect_emb_val_of_index_zero t a (congrFun Cert.Lib.zero2 a) y)

/-- From its row block of x, all of W and all of B, point t leaves block t of the projection of x by W and B. -/
theorem blk_proj (c : Dev nD) (t : Fin cfg0.N) {X : S2000x128.Idx → EReal} {xW : S128x128.Idx → EReal} {xB : S1x128.Idx → EReal} (W : S128x128.Idx → EReal) (B : S1x128.Idx → EReal)
    (hX : X = out0_9 (F := Ideal) (iblk0 V c 0 t) xW xB) (hW : xW = fun z => W ((win0_1.rect t).emb z)) (hB : xB = fun z => B ((win0_2.rect t).emb z)) :
    X = fun y => projAt (V c main_arg0) W B ((win0_0.rect t).emb y 0) ((win0_0.rect t).emb y 1) := by
  funext y
  obtain ⟨r, q, rfl⟩ : ∃ r q, y = ix2 r q := ⟨_, _, eq_ix2 y⟩
  obtain ⟨p, -, hp⟩ := row_emb t r
  subst hW hB hX
  rw [out_apply, hp]
  exact congrArg₂ (· + ·) (Finset.sum_congr rfl fun k _ => congrArg₂ (· * ·) (congrArg (V c main_arg0) (hp k)) (congrArg W (whole128 t _))) (congrArg B (whole1 t _))

theorem cover {f : Fin cfg0.N → Bool} (hf : ∀ t, f t = true) (i : S50000x128.Idx) :
    ∃ t, f t = true ∧ i ∈ Finset.univ.map (win0_0.rect t).emb :=
  Cert.Lib.cover_rows (n := 2000) (fun t => congrArg (· * 2000) (idx0 t)) (fun _ => rfl) le_rfl hf i

/-- Each output array is the projection of x by its own weight and bias: every point's block is a block of that one array, and the blocks cover it. -/
theorem arr0_9 (c : Dev nD) (p : Fin 50000) (q : Fin 128) :
    ((dat0 (F := Ideal) V c).arrAt 9 cfg0.N : S50000x128.Idx → EReal) (ix2 p q)
      = projAt (V c main_arg0) (V c main_arg4) (V c main_v0) p q :=
  congrFun ((dat0 V c).arrAt_eq_of_cover 9 (fun i => projAt _ _ _ (i 0) (i 1))
    (fun t _ => blk_proj V c t (V c main_arg4) (V c main_v0) (after0_9 V c t) rfl rfl) (cover flush0_9)) (ix2 p q)

theorem arr0_10 (c : Dev nD) (p : Fin 50000) (q : Fin 128) :
    ((dat0 (F := Ideal) V c).arrAt 10 cfg0.N : S50000x128.Idx → EReal) (ix2 p q)
      = projAt (V c main_arg0) (V c main_arg6) (V c main_v1) p q :=
  congrFun ((dat0 V c).arrAt_eq_of_cover 10 (fun i => projAt _ _ _ (i 0) (i 1))
    (fun t _ => blk_proj V c t (V c main_arg6) (V c main_v1) (after0_10 V c t) rfl rfl) (cover flush0_10)) (ix2 p q)

theorem arr0_11 (c : Dev nD) (p : Fin 50000) (q : Fin 128) :
    ((dat0 (F := Ideal) V c).arrAt 11 cfg0.N : S50000x128.Idx → EReal) (ix2 p q)
      = projAt (V c main_arg0) (V c main_arg8) (V c main_v2) p q :=
  congrFun ((dat0 V c).arrAt_eq_of_cover 11 (fun i => projAt _ _ _ (i 0) (i 1))
    (fun t _ => blk_proj V c t (V c main_arg8) (V c main_v2) (after0_11 V c t) rfl rfl) (cover flush0_11)) (ix2 p q)

theorem arr0_12 (c : Dev nD) (p : Fin 50000) (q : Fin 128) :
    ((dat0 (F := Ideal) V c).arrAt 12 cfg0.N : S50000x128.Idx → EReal) (ix2 p q)
      = projAt (V c main_arg0) (V c main_arg10) (V c main_v3) p q :=
  congrFun ((dat0 V c).arrAt_eq_of_cover 12 (fun i => projAt _ _ _ (i 0) (i 1))
    (fun t _ => blk_proj V c t (V c main_arg10) (V c main_v3) (after0_12 V c t) rfl rfl) (cover flush0_12)) (ix2 p q)

end Cert.KernelIdeal.HandV0

end
-- ==== Proof.LibRowGather.lean ====
import Idealize.ShloMosaic.Lib.StableHlo.Predicate

namespace Cert.LibRowGather

open Idealize.ShloMosaic Idealize.ShloMosaic.StableHlo.Predicate

section
variable {α : Type} {N M n w : Nat} (d : GatherDims ⟨2, ![N, M]⟩ ⟨2, ![n, 1]⟩ ⟨2, ![n, M]⟩)
  (hoff : d.offsetDims = [1]) (hcoll : d.collapsedSliceDims = [0]) (hob : d.operandBatchingDims = [])
  (hsim : d.startIndexMap = [0]) (hivd : d.indexVectorDim = 1)
include hoff hcoll hob hsim hivd

theorem siIdx_row (p : Fin n) (q : Fin M) (c : Fin d.startIndexMap.length) : d.siIdx (ij p q) c = ixP p := by
  have hc : c.val = 0 := by
    have hlen : d.startIndexMap.length = 1 := by rw [hsim]; rfl
    have := c.isLt
    omega
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show (⟨2, ![n, M]⟩ : Shape).kept d.offsetDims = [0]
      rw [hoff]; rfl
    rw [List.getElem_of_eq hbd, List.getElem_singleton]
    rfl
  | ⟨1, _⟩ =>
    unfold GatherDims.siIdx
    rw [dif_pos (by rw [hivd])]
    apply Fin.ext
    exact hc

theorem gather_rows (x : (⟨2, ![N, M]⟩ : Shape).Idx → α) (idx : IVec ⟨2, ![n, 1]⟩ w) (p : Fin n) (q : Fin M) (hN : 0 < N) :
    Host.gather d x idx (ij p q) = x (ij ⟨min (idx (ixP p)).toInt.toNat (N - 1), by omega⟩ q) := by
  unfold Host.gather
  refine congrArg x (funext (Fin.forall_fin_two.mpr ⟨Fin.ext ?_, Fin.ext ?_⟩))
  · have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [siIdx_row d hoff hcoll hob hsim hivd p q, hsl]
    rfl
  · have hb : (1 : Fin 2) ∉ d.operandBatchingDims := by rw [hob]; exact List.not_mem_nil
    have hm : (1 : Fin 2) ∉ d.startIndexMap := by rw [hsim]; simp
    have hk : (1 : Fin 2) ∈ d.sKept := by rw [GatherDims.mem_sKept, hcoll, hob]; simp
    simp only [GatherDims.operandIdx, GatherDims.batchCoord_eq_zero _ _ _ hb, Nat.add_zero, GatherDims.start, dif_neg hm,
      Nat.zero_add, GatherDims.offCoord, dif_pos hk]
    rw [List.getElem_of_eq hoff, List.getElem_singleton]
    rfl

end

end Cert.LibRowGather
-- ==== Proof.LibScatterRows.lean ====
import Idealize.ShloMosaic.PureOps.Ideal
import Idealize.ShloMosaic.Lib.ValueIdx
import Idealize.ShloMosaic.Lib.Pipeline.Value
import Mathlib.Algebra.BigOperators.Fin

noncomputable section

open scoped BigOperators

namespace Cert.Lib

open Idealize.ShloMosaic Idealize.ShloMosaic.ValueIdx

structure RowScatter2 {N M C : Nat} (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

theorem resultIdx?_rows2 {N M C w : Nat} (d : ScatterDims ⟨2, ![N, C]⟩ ⟨2, ![M, 1]⟩ ⟨2, ![M, C]⟩)
    (hd : RowScatter2 d) (m : Fin M) (c : Fin C) (idx : IVec ⟨2, ![M, 1]⟩ w) (n : Fin N) (c' : Fin C) :
    d.resultIdx? (ix2 m c) idx = some (ix2 n c') ↔ (idx (ix2 m 0)).toInt = (n.val : Int) ∧ c = c' := by
  obtain ⟨hu, hi, hs, hv⟩ := hd
  obtain ⟨uw, iw, sd, iv, wf⟩ := d
  simp only at hu hi hs hv
  subst hu hi hs hv
  have hsi : ∀ k : Fin 1, ScatterDims.siIdx (s := ⟨2, ![N, C]⟩) (u := ⟨2, ![M, C]⟩) ⟨[1], [0], [0], 1, wf⟩ (ix2 m c) k = ix2 m 0 := by
    intro k
    funext b
    match b with
    | ⟨0, _⟩ =>
      unfold ScatterDims.siIdx ScatterDims.siCoord
      rw [dif_neg (by simp)]
      apply Fin.ext
      show (ix2 m c (([0] : List (Fin 2))[_]'_)).val = m.val
      exact congrArg (fun a => (ix2 m c a).val) (List.getElem_singleton _)
    | ⟨1, _⟩ => exact Subsingleton.elim (α := Fin 1) _ _
  have h0 : ScatterDims.start (s := ⟨2, ![N, C]⟩) ⟨[1], [0], [0], 1, wf⟩ (ix2 m c) idx 0 + (ScatterDims.window (s := ⟨2, ![N, C]⟩) (si := ⟨2, ![M, 1]⟩) ⟨[1], [0], [0], 1, wf⟩ (ix2 m c) 0 : Int) = (idx (ix2 m 0)).toInt := by
    unfold ScatterDims.start ScatterDims.window
    rw [dif_pos (List.mem_singleton.2 rfl), dif_neg (by show (0 : Fin 2) ∉ ([1] : List (Fin 2)); simp), hsi]
    exact add_zero _
  have h1 : ScatterDims.start (s := ⟨2, ![N, C]⟩) ⟨[1], [0], [0], 1, wf⟩ (ix2 m c) idx 1 + (ScatterDims.window (s := ⟨2, ![N, C]⟩) (si := ⟨2, ![M, 1]⟩) ⟨[1], [0], [0], 1, wf⟩ (ix2 m c) 1 : Int) = (c.val : Int) := by
    unfold ScatterDims.start ScatterDims.window
    rw [dif_neg (by simp), dif_pos (by show (1 : Fin 2) ∈ ([1] : List (Fin 2)); simp)]
    exact (zero_add _).trans (congrArg (fun a => ((ix2 m c a).val : Int)) (List.getElem_singleton _))
  have hn := n.isLt
  have hc := c.isLt
  unfold ScatterDims.resultIdx?
  split
  · next h =>
    have b0 := (h 0).1
    rw [h0] at b0
    simp only [Option.some.injEq, funext_iff, Fin.forall_fin_two, Fin.ext_iff, h0, h1]
    change (idx (ix2 m 0)).toInt.toNat = n.val ∧ ((c.val : Nat) : Int).toNat = c'.val ↔ _
    omega
  · next h =>
    refine iff_of_false (by simp) fun ⟨e0, e1⟩ => h (Fin.forall_fin_two.mpr ⟨?_, ?_⟩)
    · rw [h0]; show 0 ≤ _ ∧ _ < (N : Int); omega
    · rw [h1]; show 0 ≤ _ ∧ _ < (C : Int); omega

theorem hostScatterAdd_rows2 {N M C w : Nat} (d : ScatterDims ⟨2, ![N, C]⟩ ⟨2, ![M, 1]⟩ ⟨2, ![M, C]⟩)
    (hd : RowScatter2 d) (x : (⟨2, ![N, C]⟩ : Shape).Idx → EReal) (idx : IVec ⟨2, ![M, 1]⟩ w)
    (upd : (⟨2, ![M, C]⟩ : Shape).Idx → EReal) (n : Fin N) (c : Fin C) :
    Ideal.hostScatterAdd d x idx upd (ix2 n c)
      = x (ix2 n c) + ∑ m ∈ Finset.univ.filter (fun m : Fin M => (idx (ix2 m 0)).toInt = (n.val : Int)), upd (ix2 m c) := by
  unfold Ideal.hostScatterAdd
  congr 1
  symm
  refine Finset.sum_bij (fun m _ => ix2 m c) ?_ ?_ ?_ ?_
  · intro m hm
    simp only [Finset.mem_filter, Finset.mem_univ, true_and] at hm ⊢
    exact (resultIdx?_rows2 d hd m c idx n c).2 ⟨hm, rfl⟩
  · intro m₁ _ m₂ _ h
    exact congrFun h 0
  · intro j hj
    obtain ⟨a, b, rfl⟩ : ∃ a b, j = ix2 a b := ⟨j 0, j 1, eq_ix2 j⟩
    simp only [Finset.mem_filter, Finset.mem_univ, true_and] at hj
    obtain ⟨hT, hc⟩ := (resultIdx?_rows2 d hd a b idx n c).1 hj
    subst hc
    exact ⟨a, by simp only [Finset.mem_filter, Finset.mem_univ, true_and]; exact hT, rfl⟩
  · intro m _; rfl

theorem scatterAdd_rows2 {N M C w : Nat} {φ : FTy} (d : ScatterDims ⟨2, ![N, C]⟩ ⟨2, ![M, 1]⟩ ⟨2, ![M, C]⟩)
    (hd : RowScatter2 d) (x : FVec Ideal ⟨2, ![N, C]⟩ φ) (idx : IVec ⟨2, ![M, 1]⟩ w)
    (upd : FVec Ideal ⟨2, ![M, C]⟩ φ) (n : Fin N) (c : Fin C) :
    Host.scatterAdd d x idx upd (ix2 n c)
      = x (ix2 n c) + ∑ m ∈ Finset.univ.filter (fun m : Fin M => (idx (ix2 m 0)).toInt = (n.val : Int)), upd (ix2 m c) :=
  hostScatterAdd_rows2 d hd x idx upd n c

end Cert.Lib
-- ==== Proof.Ref.Read.lean ====
import proofs.«424071_j18090402251221_1_alg».proof.Proof.Ref.Stages
import proofs.«424071_j18090402251221_1_alg».proof.Proof.LibPlainDot
import proofs.«424071_j18090402251221_1_alg».proof.Proof.LibRowGather
import proofs.«424071_j18090402251221_1_alg».proof.Proof.LibScatterRows
import Idealize.ShloMosaic.Lib.IdealHost

noncomputable section

open scoped BigOperators

namespace Cert.ReferenceIdeal.StageRead

open Idealize.ShloMosaic Idealize.ShloMosaic.ValueIdx Idealize.ShloMosaic.StableHlo Cert.ReferenceIdeal Cert.ReferenceIdeal.Stages
open Cert.ReferenceIdeal.Facts₀ Cert.ReferenceIdeal.Facts

theorem ixP_eq {n : Nat} (p : Fin n) : Predicate.ixP p = ix2 p (0 : Fin 1) := eq_ix2 _

theorem ij_eq {n m : Nat} (p : Fin n) (q : Fin m) : Predicate.ij p q = ix2 p q := eq_ix2 _

theorem ofFin_eq {n : Nat} (q : Fin n) : Shape.Idx.ofFin q = ix1 q := (Shape.Idx.eq_ofFin (ix1 q)).symm

theorem slt_zero_of_nonneg (v : BitVec 32) (h0 : 0 ≤ v.toInt) : IntOp.cmpi .slt v 0#32 = 0#1 := by
  have hs : v.slt 0#32 = false := by
    unfold BitVec.slt
    exact decide_eq_false (by rw [show (0#32 : BitVec 32).toInt = 0 from rfl]; omega)
  unfold IntOp.cmpi
  show BitVec.ofBool (v.slt 0#32) = 0#1
  rw [hs]; rfl

theorem one_word : Ideal.ofBits .f32 0x3F800000#32 = 1 := Ideal.ofBits_one_f32

theorem count_word : Ideal.ofBits .f32 0x47435000#32 = ((50000 : ℝ) : EReal) := by
  simp [Ideal.ofBits, Ideal.ieee, -EReal.coe_mul]; norm_num

theorem count_guard : Ideal.cmp .ogt (Ideal.ofBits .f32 0x47435000#32) (Ideal.ofBits .f32 0x00000000#32) = 1#1 := by
  rw [count_word, Ideal.ofBits_zero_f32]
  show BitVec.ofBool (decide ((0 : EReal) < ((50000 : ℝ) : EReal))) = 1#1
  rw [decide_eq_true (EReal.coe_pos.mpr (by norm_num))]; rfl

theorem splat_apply {T : Shape} (hb : S_.BroadcastsInDim T ![]) (b : BitVec 32) (j : T.Idx) :
    broadcastInDim T ![] hb (constant (F := Ideal) S_ .f32 b) j = Ideal.ofBits .f32 b :=
  broadcastInDim_scalar_apply hb _ j

theorem lift_rows (h : S50000x128.Reduces [0] S128) (q : Fin 128) (k : Fin (S50000x128.size 0)) :
    h.lift (ix1 q) k = ix2 (⟨k.val, k.isLt⟩ : Fin 50000) q := by
  funext c; apply Fin.ext
  fin_cases c <;> rfl

variable [Cert.ReferenceIdeal.Facts]

theorem bb_apply (v : FVec Ideal S128 .f32) (p : Fin 50000) (q : Fin 128) :
    bb (F := Ideal) v (ix2 p q) = v (ix1 q) := by
  rw [← ij_eq, ← ofFin_eq]
  exact Predicate.bcast_cols _ _ v p q

theorem refProj_apply (h : FVec Ideal S50000x128 .f32) (w : FVec Ideal S128x128 .f32) (b : FVec Ideal S128 .f32)
    (p : Fin 50000) (q : Fin 128) :
    refProj (F := Ideal) h w b (ix2 p q) = (∑ k : Fin 128, h (ix2 p k) * w (ix2 k q)) + b (ix1 q) := by
  unfold refProj
  rw [addf_apply, bb_apply]
  congr 1
  exact Cert.Lib.PlainDot.dotGeneral_apply ⟨rfl, rfl, rfl, rfl, rfl, rfl⟩ none .single h w p q

theorem refWrap_apply_of_nonneg (idx : IVec S600000 32) (e : Fin 600000) (h0 : 0 ≤ (idx (ix1 e)).toInt) :
    refWrap idx (ix1 e) = idx (ix1 e) := by
  show Scalar.select (IntOp.cmpi .slt (idx (ix1 e)) 0#32) (IntOp.addi (idx (ix1 e)) 50000#32) (idx (ix1 e)) = _
  rw [slt_zero_of_nonneg _ h0, select_zero]

theorem refRows_apply (t : FVec Ideal S50000x128 .f32) (idx : IVec S600000 32) (e : Fin 600000) (q : Fin 128)
    (h0 : 0 ≤ (idx (ix1 e)).toInt) (h1 : (idx (ix1 e)).toInt < 50000) :
    refRows (F := Ideal) t idx (ix2 e q) = t (ix2 ⟨(idx (ix1 e)).toInt.toNat, by omega⟩ q) := by
  unfold refRows
  have hw : broadcastInDim S600000x1 ![0] bcast_S600000_S600000x1_0 (refWrap idx)
      (Predicate.ixP e) = idx (ix1 e) := by
    rw [Predicate.bcast_col1, ofFin_eq]
    exact refWrap_apply_of_nonneg idx e h0
  rw [← ij_eq e q]
  refine (Cert.LibRowGather.gather_rows gather_S50000x128_S600000x1_S600000x128_1_0_n_n_0_1_1128 rfl rfl rfl rfl rfl
    t _ e q (by decide)).trans ?_
  refine congrArg t (funext fun a => ?_)
  match a with
  | ⟨0, _⟩ =>
    apply Fin.ext
    show min (broadcastInDim S600000x1 ![0] bcast_S600000_S600000x1_0 (refWrap idx)
      (Predicate.ixP e)).toInt.toNat (50000 - 1) = (idx (ix1 e)).toInt.toNat
    rw [hw]
    omega
  | ⟨1, _⟩ => rfl

theorem ones_apply (i : S600000x128.Idx) : ones (F := Ideal) i = 1 := by
  unfold ones
  exact (splat_apply _ _ i).trans one_word

theorem refSigma_apply (d e : FVec Ideal S600000x128 .f32) (i : S600000x128.Idx) :
    refSigma (F := Ideal) d e i = Ideal.div 1 (1 + Ideal.exp (-(d i + e i))) := by
  unfold refSigma
  show Ideal.div (ones (F := Ideal) i) (ones (F := Ideal) i + Ideal.exp (-(d i + e i))) = _
  rw [ones_apply]

theorem refRaw_apply (ah num den : FVec Ideal S50000x128 .f32) (i : S50000x128.Idx) :
    refRaw (F := Ideal) ah num den i = ah i + Ideal.div (num i) (den i + Ideal.ofBits .f32 0x358637BD#32) := by
  unfold refRaw
  show ah i + Ideal.div (num i) (den i + broadcastInDim S50000x128 ![] bcast_S_S50000x128
    (constant (F := Ideal) S_ .f32 0x358637BD#32) i) = _
  rw [splat_apply]

theorem reduces_rows : S50000x128.Reduces [0] S128 :=
  ⟨reducesTo_S50000x128_S128_d0.1, Nat.one_pos, reducesTo_S50000x128_S128_d0.2⟩

theorem colSum_apply (x : FVec Ideal S50000x128 .f32) (q : Fin 128) :
    colSum (F := Ideal) x (ix1 q) = ∑ p : Fin 50000, x (ix2 p q) := by
  unfold colSum
  refine (Ideal.hostReduceAdd_single reducesTo_S50000x128_S128_d0 reduces_rows x _ (ix1 q)).trans ?_
  rw [show constant (F := Ideal) S_ .f32 0x00000000#32 (Shape.Idx.first h_S_) = 0 from Ideal.ofBits_zero_f32, zero_add]
  exact Finset.sum_congr rfl fun k _ => congrArg x (lift_rows reduces_rows q k)

theorem refMean_apply (raw : FVec Ideal S50000x128 .f32) (q : Fin 128) :
    refMean (F := Ideal) raw (ix1 q) = Ideal.div (∑ p : Fin 50000, raw (ix2 p q)) (Ideal.ofBits .f32 0x47435000#32) := by
  unfold refMean
  show Ideal.div (colSum (F := Ideal) raw (ix1 q)) (broadcastInDim S128 ![] bcast_S_S128
    (constant (F := Ideal) S_ .f32 0x47435000#32) (ix1 q)) = _
  rw [splat_apply, colSum_apply]

theorem refDev_apply (raw : FVec Ideal S50000x128 .f32) (p : Fin 50000) (q : Fin 128) :
    refDev (F := Ideal) raw (ix2 p q)
      = raw (ix2 p q) - Ideal.div (∑ p' : Fin 50000, raw (ix2 p' q)) (Ideal.ofBits .f32 0x47435000#32) := by
  unfold refDev
  rw [subf_apply, ← ij_eq p q, Predicate.bcast_of_row]
  show _ - Ideal.div (broadcastInDim S1x128 ![1] bcast_S128_S1x128_1 (colSum (F := Ideal) raw) (Predicate.i1q q))
    (broadcastInDim S1x128 ![] bcast_S_S1x128 (constant (F := Ideal) S_ .f32 0x47435000#32) (Predicate.i1q q)) = _
  rw [splat_apply, Predicate.bcast_row1, ofFin_eq, colSum_apply]

theorem refCount_eq : refCount (F := Ideal) ix0 = Ideal.ofBits .f32 0x47435000#32 := by
  unfold refCount
  show Ideal.ofBits .f32 0x47435000#32 - (((0#32 : BitVec 32).toInt : ℝ) : EReal) = _
  rw [show (0#32 : BitVec 32).toInt = 0 from rfl, Int.cast_zero, EReal.coe_zero, sub_zero]

theorem refVar_apply (raw : FVec Ideal S50000x128 .f32) (q : Fin 128) :
    refVar (F := Ideal) raw (ix1 q)
      = Ideal.div (∑ p : Fin 50000, refDev (F := Ideal) raw (ix2 p q) * refDev (F := Ideal) raw (ix2 p q))
          (Ideal.ofBits .f32 0x47435000#32) := by
  unfold refVar
  rw [select_apply, broadcastInDim_scalar_apply, cmpf_apply, refCount_eq]
  show Scalar.select (Ideal.cmp .ogt (Ideal.ofBits .f32 0x47435000#32) (Ideal.ofBits .f32 0x00000000#32)) _ _ = _
  rw [count_guard, select_one]
  show Ideal.div (colSum (F := Ideal) (mulf (refDev (F := Ideal) raw) (refDev (F := Ideal) raw)) (ix1 q))
    (broadcastInDim S128 ![] bcast_S_S128 (refCount (F := Ideal)) (ix1 q)) = _
  rw [broadcastInDim_scalar_apply, refCount_eq, colSum_apply]
  rfl

theorem refOut_apply (h raw : FVec Ideal S50000x128 .f32) (mean var gamma beta : FVec Ideal S128 .f32)
    (p : Fin 50000) (q : Fin 128) :
    refOut (F := Ideal) h raw mean var gamma beta (ix2 p q)
      = h (ix2 p q) + max ((((raw (ix2 p q) - mean (ix1 q))
          * Ideal.rsqrt (var (ix1 q) + Ideal.ofBits .f32 0x3727C5AC#32)) * gamma (ix1 q)) + beta (ix1 q)) 0 := by
  unfold refOut
  rw [addf_apply, maximumf_apply, addf_apply, mulf_apply, mulf_apply, subf_apply, bb_apply, bb_apply, bb_apply, bb_apply,
    splat_apply, Ideal.ofBits_zero_f32]
  show _ + max ((((_ - _) * Ideal.rsqrt (var (ix1 q) + broadcastInDim S128 ![] bcast_S_S128
    (constant (F := Ideal) S_ .f32 0x3727C5AC#32) (ix1 q))) * _) + _) 0 = _
  rw [splat_apply]

theorem refAgg_apply (u : FVec Ideal S600000x128 .f32) (dst : IVec S600000 32) (r : Fin 50000) (q : Fin 128) :
    refAgg (F := Ideal) u dst (ix2 r q)
      = ∑ e ∈ Finset.univ.filter (fun e : Fin 600000 => (dst (ix1 e)).toInt = (r.val : Int)), u (ix2 e q) := by
  unfold refAgg
  refine (Cert.Lib.scatterAdd_rows2 scatter_S50000x128_S600000x1_S600000x128_1_0_0_1 ⟨rfl, rfl, rfl, rfl⟩ _ _ u r q).trans ?_
  rw [splat_apply, Ideal.ofBits_zero_f32, zero_add]
  refine Finset.sum_congr (Finset.filter_congr fun e _ => ?_) fun _ _ => rfl
  rw [← ixP_eq, Predicate.bcast_col1, ofFin_eq]

end Cert.ReferenceIdeal.StageRead

end
-- ==== Proof.Ref.Math.lean ====
import Idealize.ShloMosaic.PureOps.Ideal
import Idealize.ShloMosaic.PureOps.Ideal.Laws

noncomputable section

namespace Cert.RealMath

open Idealize.ShloMosaic

theorem coe_sum {n : ℕ} (x : Fin n → ℝ) : (∑ p, ((x p : ℝ) : EReal)) = ((∑ p, x p : ℝ) : EReal) :=
  (map_sum (⟨⟨(↑), EReal.coe_zero⟩, EReal.coe_add⟩ : ℝ →+ EReal) x _).symm

theorem div_coe (a b : ℝ) (hb : b ≠ 0) : Ideal.div (a : EReal) (b : EReal) = ((a / b : ℝ) : EReal) := by
  rw [Ideal.div_coe hb, ← EReal.coe_mul, mul_one_div]

theorem var_two_pass_real {n : ℕ} (r : Fin n → ℝ) (N : ℝ) (hN : N = n) (hN0 : N ≠ 0) :
    (∑ p, (r p - (∑ p', r p') / N) * (r p - (∑ p', r p') / N)) / N
      = (∑ p, r p * r p) / N - ((∑ p, r p) / N) * ((∑ p, r p) / N) := by
  set S : ℝ := ∑ p, r p with hS
  have h1 : ∀ m : ℝ, (∑ p, (r p - m) * (r p - m)) = (∑ p, r p * r p) - 2 * m * S + N * (m * m) := by
    intro m
    have h2 : ∀ p, (r p - m) * (r p - m) = r p * r p - 2 * m * r p + m * m := fun p => by ring
    simp only [h2, Finset.sum_add_distrib, Finset.sum_sub_distrib, ← Finset.mul_sum, Finset.sum_const,
      Finset.card_univ, Fintype.card_fin, nsmul_eq_mul, hN, hS]
    ring
  rw [h1]
  field_simp
  ring

theorem var_two_pass {n : ℕ} (hn : 0 < n) (x : Fin n → EReal) (hx : ∀ p, ∃ r : ℝ, x p = (r : EReal))
    (N : ℝ) (hN : N = n) (c : EReal) (hc : c = (N : EReal)) :
    Ideal.div (∑ p, (x p - Ideal.div (∑ p', x p') c) * (x p - Ideal.div (∑ p', x p') c)) c
      = Ideal.div (∑ p, x p * x p) c - (Ideal.div (∑ p, x p) c) * (Ideal.div (∑ p, x p) c) := by
  have hN0 : N ≠ 0 := by rw [hN]; exact_mod_cast hn.ne'
  choose r hr using hx
  subst hc
  simp only [hr, coe_sum, div_coe _ _ hN0, ← EReal.coe_sub, ← EReal.coe_mul]
  rw [var_two_pass_real r N hN hN0]

theorem ofBits_50000 : Ideal.ofBits .f32 0x47435000#32 = ((50000 : ℝ) : EReal) := by
  simp [Ideal.ofBits, Ideal.ieee, -EReal.coe_mul]; norm_num

theorem ofBits_eps6 : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

theorem add_real {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem mul_real {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem add_nonneg_real {x y : EReal} (hx : ∃ r : ℝ, 0 ≤ r ∧ x = r) (hy : ∃ r : ℝ, 0 ≤ r ∧ y = r) :
    ∃ r : ℝ, 0 ≤ r ∧ x + y = r := by
  obtain ⟨a, ha, rfl⟩ := hx; obtain ⟨b, hb, rfl⟩ := hy
  exact ⟨a + b, add_nonneg ha hb, (EReal.coe_add a b).symm⟩

theorem real_of_pos {x : EReal} (hx : ∃ r : ℝ, 0 < r ∧ x = r) : ∃ r : ℝ, x = r := by
  obtain ⟨a, _, rfl⟩ := hx; exact ⟨a, rfl⟩

theorem nonneg_of_pos {x : EReal} (hx : ∃ r : ℝ, 0 < r ∧ x = r) : ∃ r : ℝ, 0 ≤ r ∧ x = r := by
  obtain ⟨a, ha, rfl⟩ := hx; exact ⟨a, ha.le, rfl⟩

theorem sigma_pos_of_real {x : EReal} (hx : ∃ r : ℝ, x = r) :
    ∃ s : ℝ, 0 < s ∧ Ideal.div 1 (1 + Ideal.exp (-x)) = (s : EReal) := by
  obtain ⟨a, rfl⟩ := hx
  have hpos : 0 < 1 + Real.exp (-a) := by positivity
  refine ⟨1 / (1 + Real.exp (-a)), by positivity, ?_⟩
  rw [← EReal.coe_neg, Ideal.exp_coe, ← EReal.coe_one, ← EReal.coe_add, div_coe _ _ hpos.ne']

theorem quot_real_of {x y z : EReal} (hx : ∃ r : ℝ, x = r) (hy : ∃ r : ℝ, 0 ≤ r ∧ y = r)
    (hz : ∃ r : ℝ, 0 < r ∧ z = r) : ∃ r : ℝ, Ideal.div x (y + z) = (r : EReal) := by
  obtain ⟨a, rfl⟩ := hx; obtain ⟨d, hd, rfl⟩ := hy; obtain ⟨e, he, rfl⟩ := hz
  have hpos : 0 < d + e := by positivity
  exact ⟨a / (d + e), by rw [← EReal.coe_add, div_coe _ _ hpos.ne']⟩

theorem finset_sum_real {ι : Type*} (s : Finset ι) (x : ι → EReal) (hx : ∀ p ∈ s, ∃ r : ℝ, x p = r) :
    ∃ r : ℝ, (∑ p ∈ s, x p) = r :=
  Finset.sum_induction x (fun y => ∃ r : ℝ, y = r) (fun _ _ => add_real) ⟨0, rfl⟩ hx

theorem finset_sum_nonneg_real {ι : Type*} (s : Finset ι) (x : ι → EReal)
    (hx : ∀ p ∈ s, ∃ r : ℝ, 0 ≤ r ∧ x p = r) : ∃ r : ℝ, 0 ≤ r ∧ (∑ p ∈ s, x p) = r :=
  Finset.sum_induction x (fun y => ∃ r : ℝ, 0 ≤ r ∧ y = r) (fun _ _ => add_nonneg_real) ⟨0, le_rfl, rfl⟩ hx

theorem sum_real {ι : Type*} [Fintype ι] (x : ι → EReal) (hx : ∀ p, ∃ r : ℝ, x p = r) :
    ∃ r : ℝ, (∑ p, x p) = r :=
  finset_sum_real Finset.univ x fun p _ => hx p

end Cert.RealMath

end
-- ==== Proof.Mesh.lean ====
import proofs.«424071_j18090402251221_1_alg».proof.Proof.Ref.Read
import proofs.«424071_j18090402251221_1_alg».proof.Proof.Ref.Math
import Idealize.ShloMosaic.Lib.Pipeline.Value
import Idealize.ShloMosaic.Lib.ValueIdx

noncomputable section

open scoped BigOperators

namespace Cert.Mesh

open Idealize.ShloMosaic Idealize.ShloMosaic.ValueIdx
open Cert.ReferenceIdeal Cert.ReferenceIdeal.Stages Cert.ReferenceIdeal.StageRead

theorem row_apply (v : FVec Ideal S128 .f32) (sc : S128.ShapeCasts S1x128) (q : Fin 128) :
    shapeCast S1x128 v sc (ix2 (0 : Fin 1) q) = v (ix1 q) :=
  (shapeCast_addUnit_apply ![128] v sc (ix2 (0 : Fin 1) q)).trans
    (congrArg v (funext fun a => by
      match a with
      | ⟨0, _⟩ => rfl))

variable [Cert.ReferenceIdeal.Facts]

theorem mesh_proj (x : FVec Ideal S50000x128 .f32) (w : FVec Ideal S128x128 .f32) (b : FVec Ideal S128 .f32)
    (A : FVec Ideal S50000x128 .f32)
    (hA : ∀ (p : Fin 50000) (q : Fin 128), A (ix2 p q) = (∑ k : Fin 128, x (ix2 p k) * w (ix2 k q)) + b (ix1 q)) :
    A = refProj (F := Ideal) x w b := by
  funext j
  obtain ⟨p, q, rfl⟩ : ∃ (p : Fin 50000) (q : Fin 128), j = ix2 p q := ⟨j 0, j 1, eq_ix2 j⟩
  rw [hA, refProj_apply]

theorem mesh_rows (t : FVec Ideal S50000x128 .f32) (idx : IVec S600000 32)
    (hr : ∀ e : Fin 600000, 0 ≤ (idx (ix1 e)).toInt ∧ (idx (ix1 e)).toInt < 50000)
    (B : FVec Ideal S600000x128 .f32)
    (hB : ∀ (e : Fin 600000) (q : Fin 128),
      B (ix2 e q) = t (ix2 ⟨(idx (ix1 e)).toInt.toNat, by have := hr e; omega⟩ q)) :
    B = refRows (F := Ideal) t idx := by
  funext j
  obtain ⟨e, q, rfl⟩ : ∃ (e : Fin 600000) (q : Fin 128), j = ix2 e q := ⟨j 0, j 1, eq_ix2 j⟩
  rw [hB, refRows_apply t idx e q (hr e).1 (hr e).2]

theorem mesh_sigma (d e S : FVec Ideal S600000x128 .f32) (hS : ∀ i, S i = Ideal.logistic (d i + e i)) :
    S = refSigma (F := Ideal) d e := by
  funext i
  rw [hS, refSigma_apply]
  rfl

theorem mesh_wgt (d e b Wt : FVec Ideal S600000x128 .f32) (hW : ∀ i, Wt i = Ideal.logistic (d i + e i) * b i) :
    Wt = mulf (refSigma (F := Ideal) d e) b := by
  funext i
  rw [hW, mulf_apply, refSigma_apply]
  rfl

theorem mesh_raw (ah num den R : FVec Ideal S50000x128 .f32)
    (hR : ∀ (p : Fin 50000) (q : Fin 128),
      R (ix2 p q) = ah (ix2 p q) + Ideal.div (num (ix2 p q)) (den (ix2 p q) + Ideal.ofBits .f32 0x358637BD#32)) :
    R = refRaw (F := Ideal) ah num den := by
  funext j
  obtain ⟨p, q, rfl⟩ : ∃ (p : Fin 50000) (q : Fin 128), j = ix2 p q := ⟨j 0, j 1, eq_ix2 j⟩
  rw [hR, refRaw_apply]

theorem mesh_mean (raw : FVec Ideal S50000x128 .f32) (M : FVec Ideal S1x128 .f32)
    (hM : ∀ q : Fin 128, M (ix2 (0 : Fin 1) q)
      = Ideal.div (∑ p : Fin 50000, raw (ix2 p q)) (Ideal.ofBits .f32 0x47435000#32))
    (q : Fin 128) : M (ix2 (0 : Fin 1) q) = refMean (F := Ideal) raw (ix1 q) := by
  rw [hM, refMean_apply]

theorem mesh_var (raw : FVec Ideal S50000x128 .f32) (hreal : ∀ i, ∃ r : ℝ, raw i = (r : EReal))
    (Vr : FVec Ideal S1x128 .f32)
    (hV : ∀ q : Fin 128, Vr (ix2 (0 : Fin 1) q)
      = Ideal.div (∑ p : Fin 50000, raw (ix2 p q) * raw (ix2 p q)) (Ideal.ofBits .f32 0x47435000#32)
        - Ideal.div (∑ p : Fin 50000, raw (ix2 p q)) (Ideal.ofBits .f32 0x47435000#32)
          * Ideal.div (∑ p : Fin 50000, raw (ix2 p q)) (Ideal.ofBits .f32 0x47435000#32))
    (q : Fin 128) : Vr (ix2 (0 : Fin 1) q) = refVar (F := Ideal) raw (ix1 q) := by
  rw [hV, refVar_apply]
  simp only [refDev_apply]
  exact (Cert.RealMath.var_two_pass (n := 50000) (by norm_num) (fun p : Fin 50000 => raw (ix2 p q))
    (fun p => hreal (ix2 p q)) 50000 (by norm_num) (Ideal.ofBits .f32 0x47435000#32) Cert.RealMath.ofBits_50000).symm

theorem mesh_out (h raw : FVec Ideal S50000x128 .f32) (mean var gamma beta : FVec Ideal S128 .f32)
    (Mk Vk Gk Bk : FVec Ideal S1x128 .f32)
    (hM : ∀ q : Fin 128, Mk (ix2 (0 : Fin 1) q) = mean (ix1 q)) (hV : ∀ q : Fin 128, Vk (ix2 (0 : Fin 1) q) = var (ix1 q))
    (hG : ∀ q : Fin 128, Gk (ix2 (0 : Fin 1) q) = gamma (ix1 q)) (hB : ∀ q : Fin 128, Bk (ix2 (0 : Fin 1) q) = beta (ix1 q))
    (O : FVec Ideal S50000x128 .f32)
    (hO : ∀ (p : Fin 50000) (q : Fin 128), O (ix2 p q) = h (ix2 p q)
      + max ((((raw (ix2 p q) - Mk (ix2 (0 : Fin 1) q)) * Ideal.rsqrt (Vk (ix2 (0 : Fin 1) q) + Ideal.ofBits .f32 0x3727C5AC#32))
          * Gk (ix2 (0 : Fin 1) q)) + Bk (ix2 (0 : Fin 1) q)) 0) :
    O = refOut (F := Ideal) h raw mean var gamma beta := by
  funext j
  obtain ⟨p, q, rfl⟩ : ∃ (p : Fin 50000) (q : Fin 128), j = ix2 p q := ⟨j 0, j 1, eq_ix2 j⟩
  rw [hO, refOut_apply, hM, hV, hG, hB]

end Cert.Mesh

end
-- ==== Proof.Join.Proj.lean ====
import proofs.«424071_j18090402251221_1_alg».proof.Proof.KI.Chain
import proofs.«424071_j18090402251221_1_alg».proof.Proof.KI.V0
import proofs.«424071_j18090402251221_1_alg».proof.Proof.Mesh

noncomputable section

namespace Cert.Join

open Idealize.ShloMosaic Idealize.ShloMosaic.TcCoe Idealize.ShloMosaic.ValueIdx Idealize.SL.Sem
open Cert.KernelIdeal Cert.KernelIdeal.Hand Cert.KernelIdeal.HandV0
open Cert.ReferenceIdeal.Stages

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

variable [Cert.ReferenceIdeal.Facts]

/-- An array that is projAt of x, w and the bias b laid out as one row, element by element, is the reference's projection of x by w and b. -/
theorem proj_eq {A A' X : S50000x128.Idx → EReal} {W : S128x128.Idx → EReal} {B : S1x128.Idx → EReal}
    {x : FVec Ideal Cert.ReferenceIdeal.S50000x128 .f32} {w : FVec Ideal Cert.ReferenceIdeal.S128x128 .f32} {b : FVec Ideal Cert.ReferenceIdeal.S128 .f32}
    (hA : A = A') (h : ∀ p q, A' (ix2 p q) = projAt X W B p q) (hX : X = x) (hW : W = w)
    (hB : B = shapeCast S1x128 b Gen.shapeCasts_S128_S1x128) : A = refProj (F := Ideal) x w b := by
  subst hA hX hW hB
  exact Cert.Mesh.mesh_proj X W b _ fun p q => (h p q).trans (congrArg _ (Cert.Mesh.row_apply _ _ q))

theorem kAh : (W2 m ρ c (Proc.devRef .tc main_v4_0) : FVec Ideal Cert.ReferenceIdeal.S50000x128 .f32)
    = refProj (F := Ideal) (m ((c : Thread nD τ).loc main_arg0)) (m ((c : Thread nD τ).loc main_arg4)) (m ((c : Thread nD τ).loc main_arg5)) :=
  proj_eq (Chain.out0_ah m ρ c) (arr0_9 (Hand.V1 m ρ) c) (Chain.in0_x m ρ c) (Chain.in0_w4 m ρ c) (Chain.in0_b5 m ρ c)

theorem kBh : (W2 m ρ c (Proc.devRef .tc main_v4_1) : FVec Ideal Cert.ReferenceIdeal.S50000x128 .f32)
    = refProj (F := Ideal) (m ((c : Thread nD τ).loc main_arg0)) (m ((c : Thread nD τ).loc main_arg6)) (m ((c : Thread nD τ).loc main_arg7)) :=
  proj_eq (Chain.out0_bh m ρ c) (arr0_10 (Hand.V1 m ρ) c) (Chain.in0_x m ρ c) (Chain.in0_w6 m ρ c) (Chain.in0_b7 m ρ c)

theorem kDh : (W2 m ρ c (Proc.devRef .tc main_v4_2) : FVec Ideal Cert.ReferenceIdeal.S50000x128 .f32)
    = refProj (F := Ideal) (m ((c : Thread nD τ).loc main_arg0)) (m ((c : Thread nD τ).loc main_arg8)) (m ((c : Thread nD τ).loc main_arg9)) :=
  proj_eq (Chain.out0_dh m ρ c) (arr0_11 (Hand.V1 m ρ) c) (Chain.in0_x m ρ c) (Chain.in0_w8 m ρ c) (Chain.in0_b9 m ρ c)

theorem kEh : (W2 m ρ c (Proc.devRef .tc main_v4_3) : FVec Ideal Cert.ReferenceIdeal.S50000x128 .f32)
    = refProj (F := Ideal) (m ((c : Thread nD τ).loc main_arg0)) (m ((c : Thread nD τ).loc main_arg10)) (m ((c : Thread nD τ).loc main_arg11)) :=
  proj_eq (Chain.out0_eh m ρ c) (arr0_12 (Hand.V1 m ρ) c) (Chain.in0_x m ρ c) (Chain.in0_w10 m ρ c) (Chain.in0_b11 m ρ c)

end Cert.Join

end
-- ==== Proof.KI.V1.lean ====
import proofs.«424071_j18090402251221_1_alg».proof.Proof.KI.R1
import proofs.«424071_j18090402251221_1_alg».proof.Proof.LibBlocks
import Idealize.ShloMosaic.Lib.Pipeline.Value

noncomputable section

namespace Cert.KernelIdeal.HandV1

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx

/-- The gate at an element: the logistic function of the sum. -/
theorem out3_apply (x0 x1 : S4000x128.Idx → EReal) : out1_3 (F := Ideal) x0 x1 = fun j => Ideal.logistic (x0 j + x1 j) := by
  rw [out1_3, View.canon_unit_zero Cert.Lib.zero2, View.ld_unit_zero Cert.Lib.zero2, View.ld_unit_zero Cert.Lib.zero2, k1_pay1]
  simp only [shapeCast_self]
  rfl

/-- The gated value at an element: the gate times the third operand. -/
theorem out4_apply (x0 x1 x2 : S4000x128.Idx → EReal) : out1_4 (F := Ideal) x0 x1 x2 = fun j => Ideal.logistic (x0 j + x1 j) * x2 j := by
  rw [out1_4, View.canon_unit_zero Cert.Lib.zero2, View.ld_unit_zero Cert.Lib.zero2, View.ld_unit_zero Cert.Lib.zero2, View.ld_unit_zero Cert.Lib.zero2, k1_pay2, k1_pay1]
  simp only [shapeCast_self]
  rfl

theorem idx1 : ∀ t : Fin cfg1.N, win1_0.index t 0 = t.val := (by decide +kernel : ∀ t : Fin grid1.N, _)

/-- The 150 blocks of 4000 rows cover the 600000 rows. -/
theorem cover {f : Fin cfg1.N → Bool} (hf : ∀ t, f t = true) (i : S600000x128.Idx) :
    ∃ t, f t = true ∧ i ∈ Finset.univ.map (win1_0.rect t).emb :=
  Cert.Lib.cover_rows (n := 4000) (fun t => congrArg (· * 4000) (idx1 t)) (fun _ => rfl) le_rfl hf i

variable (V : (c : Dev nD) → (b : Ref sig .tc) → Buf (Elt Ideal) ((c : Thread nD τ).loc b))

abbrev in5 (c : Dev nD) : S600000x128.Idx → EReal := V c main_v5
abbrev in6 (c : Dev nD) : S600000x128.Idx → EReal := V c main_v6
abbrev in7 (c : Dev nD) : S600000x128.Idx → EReal := V c main_v7

abbrev G3 (a0 a1 : S600000x128.Idx → EReal) : S600000x128.Idx → EReal := fun i => Ideal.logistic (a0 i + a1 i)

abbrev G4 (a0 a1 a2 : S600000x128.Idx → EReal) : S600000x128.Idx → EReal := fun i => Ideal.logistic (a0 i + a1 i) * a2 i

/-- All five blocks of a point sit at the same rows, so the block left is that block of the elementwise function of the arrays. -/
theorem final3 (c : Dev nD) : (dat1 (F := Ideal) V c).arrAt 3 cfg1.N = G3 (in5 V c) (in6 V c) :=
  (dat1 V c).arrAt_eq_of_cover 3 _ (fun t _ => (congrArg _ (after1_3 V c t)).trans (out3_apply _ _)) (cover flush1_3)

theorem final4 (c : Dev nD) : (dat1 (F := Ideal) V c).arrAt 4 cfg1.N = G4 (in5 V c) (in6 V c) (in7 V c) :=
  (dat1 V c).arrAt_eq_of_cover 4 _ (fun t _ => (congrArg _ (after1_4 V c t)).trans (out4_apply _ _ _)) (cover flush1_4)

end Cert.KernelIdeal.HandV1

end
-- ==== Proof.KI.TakeRead.lean ====
import proofs.«424071_j18090402251221_1_alg».proof.Proof.KI.Host
import proofs.«424071_j18090402251221_1_alg».proof.Proof.LibRowGather
import Idealize.ShloMosaic.Lib.Pipeline.Value
import Idealize.ShloMosaic.Lib.ValueIdx
import Idealize.ShloMosaic.Lib.IdealHost
import Idealize.ShloMosaic.PureOps.Reduce

noncomputable section

namespace Cert.KernelIdeal.HandV

open Idealize.ShloMosaic Idealize.ShloMosaic.ValueIdx Cert.KernelIdeal Cert.KernelIdeal.Gen Cert.KernelIdeal.HostStages

theorem ij_eq {n m : Nat} (p : Fin n) (q : Fin m) : Idealize.ShloMosaic.StableHlo.Predicate.ij p q = ix2 p q := by
  funext a
  match a with
  | ⟨0, _⟩ | ⟨1, _⟩ => rfl

theorem ixP_eq {n : Nat} (p : Fin n) : Idealize.ShloMosaic.StableHlo.Predicate.ixP p = ix2 p (0 : Fin 1) := by
  funext a
  match a with
  | ⟨0, _⟩ | ⟨1, _⟩ => rfl

/-- A signed comparison is the truth value of the comparison of the two signed readings. -/
theorem ofBool_decide {p : Prop} [Decidable p] : (p → BitVec.ofBool (decide p) = 1#1) ∧ (¬p → BitVec.ofBool (decide p) = 0#1) :=
  ⟨fun h => by rw [decide_eq_true h]; rfl, fun h => by rw [decide_eq_false h]; rfl⟩

theorem slt_zero_of_nonneg (v : BitVec 32) (h0 : 0 ≤ v.toInt) : IntOp.cmpi .slt v 0#32 = 0#1 :=
  ofBool_decide.2 (by rw [show (0#32 : BitVec 32).toInt = 0 from rfl]; omega)

theorem sge_zero_of_nonneg (v : BitVec 32) (h0 : 0 ≤ v.toInt) : IntOp.cmpi .sge v 0#32 = 1#1 :=
  ofBool_decide.1 (by rw [show (0#32 : BitVec 32).toInt = 0 from rfl]; exact h0)

theorem sle_last_of_lt (v : BitVec 32) (h1 : v.toInt < 50000) : IntOp.cmpi .sle v 49999#32 = 1#1 :=
  ofBool_decide.1 (by rw [show (49999#32 : BitVec 32).toInt = 49999 from by decide]; omega)

variable [Cert.KernelIdeal.Facts]

theorem takeCol_apply (idx : IVec S600000 32) (e : Fin 600000) (h0 : 0 ≤ (idx (ix1 e)).toInt) :
    takeCol idx (ix2 e (0 : Fin 1)) = idx (ix1 e) := by
  unfold takeCol
  refine (broadcastInDim_apply _ _ _ (ix2 e (0 : Fin 1)) (ix1 e) fun a => ?_).trans ?_
  · match a with
    | ⟨0, _⟩ => rfl
  · show Scalar.select (IntOp.cmpi .slt (idx (ix1 e)) 0#32) (IntOp.addi (idx (ix1 e)) 50000#32) (idx (ix1 e)) = _
    rw [slt_zero_of_nonneg _ h0, select_zero]

theorem reduces_unit : S600000x1.Reduces [1] S600000 :=
  ⟨reducesTo_S600000x1_S600000_d1.1, Nat.one_pos, reducesTo_S600000x1_S600000_d1.2⟩

theorem lift_unit (h : S600000x1.Reduces [1] S600000) (e : Fin 600000) (k : Fin (S600000x1.size 1)) :
    h.lift (ix1 e) k = ix2 e (0 : Fin 1) := by
  funext c; apply Fin.ext
  have hk : k.val = 0 := by have := k.isLt; change k.val < 1 at this; omega
  match c with
  | ⟨0, _⟩ => rfl
  | ⟨1, _⟩ => show k.val = 0; exact hk

theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

theorem takeMask_apply (idx : IVec S600000 32) (e : Fin 600000) (h0 : 0 ≤ (idx (ix1 e)).toInt)
    (h1 : (idx (ix1 e)).toInt < 50000) : takeMask idx (ix1 e) = 1#1 := by
  unfold takeMask
  rw [Host.reduce_eq_fold_single IntOp.andi _ _ reducesTo_S600000x1_S600000_d1 reduces_unit h_S_ (ix1 e)]
  refine (fold_fin_one IntOp.andi _ _).trans ?_
  show IntOp.andi (IntOp.andi (IntOp.cmpi .sge (takeCol idx (reduces_unit.lift (ix1 e) (0 : Fin 1))) 0#32)
    (IntOp.cmpi .sle (takeCol idx (reduces_unit.lift (ix1 e) (0 : Fin 1))) 49999#32)) 1#1 = 1#1
  rw [lift_unit reduces_unit e (0 : Fin 1), takeCol_apply idx e h0, sge_zero_of_nonneg _ h0, sle_last_of_lt _ h1]
  rfl

theorem kTake_apply (t : FVec Ideal S50000x128 .f32) (idx : IVec S600000 32) (e : Fin 600000) (q : Fin 128)
    (h0 : 0 ≤ (idx (ix1 e)).toInt) (h1 : (idx (ix1 e)).toInt < 50000) :
    kTake (F := Ideal) t idx (ix2 e q) = t (ix2 ⟨(idx (ix1 e)).toInt.toNat, by omega⟩ q) := by
  unfold kTake
  have hm : broadcastInDim S600000x128 ![0] bcast_S600000_S600000x128_0 (takeMask idx) (ix2 e q) = 1#1 := by
    refine (broadcastInDim_apply _ _ _ (ix2 e q) (ix1 e) fun a => ?_).trans (takeMask_apply idx e h0 h1)
    match a with
    | ⟨0, _⟩ => rfl
  show Scalar.select (broadcastInDim S600000x128 ![0] bcast_S600000_S600000x128_0 (takeMask idx) (ix2 e q))
    (Host.gather gather_S50000x128_S600000x1_S600000x128_1_0_n_n_0_1_1128 t (takeCol idx) (ix2 e q)) _ = _
  rw [hm, select_one]
  have hw : takeCol idx (Idealize.ShloMosaic.StableHlo.Predicate.ixP e) = idx (ix1 e) := by
    rw [ixP_eq]; exact takeCol_apply idx e h0
  rw [← ij_eq e q]
  refine (Cert.LibRowGather.gather_rows gather_S50000x128_S600000x1_S600000x128_1_0_n_n_0_1_1128 rfl rfl rfl rfl rfl
    t _ e q (by decide)).trans ?_
  refine congrArg t (funext fun a => ?_)
  match a with
  | ⟨0, _⟩ =>
    apply Fin.ext
    show min (takeCol idx (Idealize.ShloMosaic.StableHlo.Predicate.ixP e)).toInt.toNat (50000 - 1) = (idx (ix1 e)).toInt.toNat
    rw [hw]
    omega
  | ⟨1, _⟩ => rfl

end Cert.KernelIdeal.HandV

end
-- ==== Proof.Join.Edge.lean ====
import proofs.«424071_j18090402251221_1_alg».proof.Proof.KI.Chain
import proofs.«424071_j18090402251221_1_alg».proof.Proof.KI.V1
import proofs.«424071_j18090402251221_1_alg».proof.Proof.KI.TakeRead
import proofs.«424071_j18090402251221_1_alg».proof.Proof.Mesh

noncomputable section

namespace Cert.Join

open Idealize.ShloMosaic Idealize.ShloMosaic.ValueIdx Idealize.ShloMosaic.TcCoe Idealize.SL.Sem
open Cert.KernelIdeal Cert.KernelIdeal.Gen Cert.KernelIdeal.HostStages
open Cert.ReferenceIdeal.Stages (refRows refSigma refAgg)

variable [Cert.ReferenceIdeal.Facts]

abbrev InRange (idx : IVec Cert.ReferenceIdeal.S600000 32) : Prop :=
  ∀ e : Fin 600000, 0 ≤ (idx (ix1 e)).toInt ∧ (idx (ix1 e)).toInt < 50000

/-- With every index in range, the rows taken are the reference's rows. -/
theorem take_rows {v : FVec Ideal Cert.ReferenceIdeal.S600000x128 .f32} {t T : FVec Ideal Cert.ReferenceIdeal.S50000x128 .f32}
    {idx : IVec Cert.ReferenceIdeal.S600000 32} (hr : InRange idx) (hv : v = kTake (F := Ideal) t idx) (hT : t = T) :
    v = refRows (F := Ideal) T idx := by
  subst hv hT
  exact Cert.Mesh.mesh_rows t idx hr _ fun e q => Cert.KernelIdeal.HandV.kTake_apply t idx e q (hr e).1 (hr e).2

variable (m : (ℓ : Loc nD τ sig) → Buf (Elt Ideal) ℓ) (ρ : Dev nD → PrngReg) (c : Dev nD)

theorem kSig
    (hsrc : InRange (m ((c : Thread nD τ).loc main_arg2)))
    (hdst : InRange (m ((c : Thread nD τ).loc main_arg3)))
    (Dh Eh : FVec Ideal Cert.ReferenceIdeal.S50000x128 .f32)
    (hD : Hand.W2 m ρ c (Proc.devRef .tc main_v4_2) = Dh) (hE : Hand.W2 m ρ c (Proc.devRef .tc main_v4_3) = Eh) :
    Hand.W6 m ρ c (Proc.devRef .tc main_v8_0)
      = refSigma (F := Ideal) (refRows (F := Ideal) Dh (m ((c : Thread nD τ).loc main_arg2)))
          (refRows (F := Ideal) Eh (m ((c : Thread nD τ).loc main_arg3))) :=
  Cert.Mesh.mesh_sigma _ _ _ (congrFun (((Chain.out1_sig m ρ c).trans (HandV1.final3 (Hand.V5 m ρ) c)).trans
    (congrArg₂ HandV1.G3 (take_rows hsrc (Chain.in1_d m ρ c) hD) (take_rows hdst (Chain.in1_e m ρ c) hE))))

theorem kWgt
    (hsrc : InRange (m ((c : Thread nD τ).loc main_arg2)))
    (hdst : InRange (m ((c : Thread nD τ).loc main_arg3)))
    (Dh Eh Bh : FVec Ideal Cert.ReferenceIdeal.S50000x128 .f32)
    (hD : Hand.W2 m ρ c (Proc.devRef .tc main_v4_2) = Dh) (hE : Hand.W2 m ρ c (Proc.devRef .tc main_v4_3) = Eh)
    (hB : Hand.W2 m ρ c (Proc.devRef .tc main_v4_1) = Bh) :
    Hand.W6 m ρ c (Proc.devRef .tc main_v8_1)
      = mulf (refSigma (F := Ideal) (refRows (F := Ideal) Dh (m ((c : Thread nD τ).loc main_arg2)))
          (refRows (F := Ideal) Eh (m ((c : Thread nD τ).loc main_arg3))))
        (refRows (F := Ideal) Bh (m ((c : Thread nD τ).loc main_arg2))) :=
  Cert.Mesh.mesh_wgt _ _ _ _ (congrFun (((Chain.out1_wgt m ρ c).trans (HandV1.final4 (Hand.V5 m ρ) c)).trans
    (congr (congrArg₂ HandV1.G4 (take_rows hsrc (Chain.in1_d m ρ c) hD) (take_rows hdst (Chain.in1_e m ρ c) hE))
      (take_rows hsrc (Chain.in1_b m ρ c) hB))))

theorem kNum (Wt : FVec Ideal Cert.ReferenceIdeal.S600000x128 .f32)
    (hW : Hand.W6 m ρ c (Proc.devRef .tc main_v8_1) = Wt) :
    Hand.V7 m ρ c main_v11 = refAgg (F := Ideal) Wt (m ((c : Thread nD τ).loc main_arg3)) := by
  subst hW
  exact Chain.in2_num m ρ c

theorem kDen (S : FVec Ideal Cert.ReferenceIdeal.S600000x128 .f32)
    (hS : Hand.W6 m ρ c (Proc.devRef .tc main_v8_0) = S) :
    Hand.V7 m ρ c main_v14 = refAgg (F := Ideal) S (m ((c : Thread nD τ).loc main_arg3)) := by
  subst hS
  exact Chain.in2_den m ρ c

end Cert.Join

end
-- ==== Proof.LibMaskSum.lean ====
import Mathlib.Data.EReal.Inv
import Mathlib.Algebra.BigOperators.Group.Finset.Basic
import Mathlib.Algebra.BigOperators.Group.Finset.Piecewise

open scoped BigOperators

namespace Cert.Lib

theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

end Cert.Lib
-- ==== Proof.LibBlockSum.lean ====
import proofs.«424071_j18090402251221_1_alg».proof.Proof.LibMaskSum
import Idealize.ShloMosaic.Lib.StableHlo.Predicate
import Mathlib.Algebra.BigOperators.Fin

open scoped BigOperators

namespace Cert.Lib

open Idealize.ShloMosaic

theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

end Cert.Lib
-- ==== Proof.KI.Pay2.lean ====
import proofs.«424071_j18090402251221_1_alg».proof.Proof.Gen.KernelIdeal.Skeleton
import proofs.«424071_j18090402251221_1_alg».proof.Proof.LibBlockSum
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

open scoped BigOperators

namespace Cert.KernelIdeal.HandV2

open Idealize.ShloMosaic Idealize.ShloMosaic.ValueIdx Cert.KernelIdeal Cert.KernelIdeal.Gen

def epsC : EReal := Ideal.ofBits .f32 0x358637BD#32

def c50000 : EReal := Ideal.ofBits .f32 0x47435000#32

theorem pay5_apply (v3 v5 v7 : Vec Ideal S2000x128 .f32) (r : Fin 2000) (q : Fin 128) :
    k2_pay5 (F := Ideal) v3 v5 v7 (ix2 r q)
      = v3 (ix2 r q) + Ideal.div (v5 (ix2 r q)) (v7 (ix2 r q) + epsC) := by
  unfold k2_pay5
  simp only [shapeCast_self]
  rfl

/-- Both running rows are updated by this one expression: at the block for the first, at its square for the second. -/
theorem acc_apply (s : Vec Ideal S1x128 .f32) (x : FVec Ideal S2000x128 .f32) (h : S2000x128.Reduces [0] S128)
    (hφ : FKind.Formats .f32) (hacc : (0x00000000#32 : BitVec 32) = 0x00000000#32)
    (hc : S128.ShapeCasts S1x128) (hc' : S1x128.ShapeCasts S1x128) (q : Fin 128) :
    shapeCast S1x128 (addf s (shapeCast S1x128 (multiReduction (F := Ideal) .add [0] S128 x 0x00000000#32 h hφ hacc) hc)) hc'
        (ix2 (0 : Fin 1) q) = s (ix2 (0 : Fin 1) q) + ∑ r : Fin 2000, x (ix2 r q) := by
  rw [shapeCast_self]
  refine (addf_apply _ _ _).trans (congrArg (s (ix2 (0 : Fin 1) q) + ·) ?_)
  refine (shapeCast_a_1a_apply _ hc (0 : Fin 1) q).trans ?_
  refine (Ideal.multiReduction_add_single x 0x00000000#32 h hφ hacc (ix1 q)).trans ?_
  refine Finset.sum_congr rfl fun r _ => congrArg x ?_
  funext d
  match d with
  | ⟨0, _⟩ => rfl
  | ⟨1, _⟩ => rfl

theorem pay3_apply (q : Fin 128) : k2_pay3 (F := Ideal) (ix2 (0 : Fin 1) q) = 0 := by
  unfold k2_pay3
  simp only [shapeCast_self]
  exact Ideal.ofBits_zero_f32

theorem pay1_apply (s0 : Vec Ideal S1x128 .f32) (q : Fin 128) :
    k2_pay1 (F := Ideal) s0 (ix2 (0 : Fin 1) q) = Ideal.div (s0 (ix2 (0 : Fin 1) q)) c50000 := rfl

theorem pay2_apply (s0 s1 : Vec Ideal S1x128 .f32) (q : Fin 128) :
    k2_pay2 (F := Ideal) s0 s1 (ix2 (0 : Fin 1) q)
      = Ideal.div (s1 (ix2 (0 : Fin 1) q)) c50000
        - Ideal.div (s0 (ix2 (0 : Fin 1) q)) c50000 * Ideal.div (s0 (ix2 (0 : Fin 1) q)) c50000 := rfl

def rows {N : ℕ} (b0 b1 b2 : Fin N → Vec Ideal S2000x128 .f32) :
    (n : ℕ) → n < N → Vec Ideal S1x128 .f32 × Vec Ideal S1x128 .f32
  | 0, h => (k2_pay6 (b0 ⟨0, h⟩) (b1 ⟨0, h⟩) (b2 ⟨0, h⟩) (k2_pay3 (F := Ideal)),
     k2_pay7 (b0 ⟨0, h⟩) (b1 ⟨0, h⟩) (b2 ⟨0, h⟩) (k2_pay4 (F := Ideal)))
  | n + 1, h =>
    (k2_pay6 (b0 ⟨n + 1, h⟩) (b1 ⟨n + 1, h⟩) (b2 ⟨n + 1, h⟩) (rows b0 b1 b2 n (Nat.lt_of_succ_lt h)).1,
     k2_pay7 (b0 ⟨n + 1, h⟩) (b1 ⟨n + 1, h⟩) (b2 ⟨n + 1, h⟩) (rows b0 b1 b2 n (Nat.lt_of_succ_lt h)).2)

/-- By induction on the number of steps; both running rows are instances. -/
theorem sum_of_step {N : ℕ} (u : (n : ℕ) → n < N → EReal) (g : Fin N → EReal) (h0 : ∀ h, u 0 h = g ⟨0, h⟩)
    (hs : ∀ n h, u (n + 1) h = u n (Nat.lt_of_succ_lt h) + g ⟨n + 1, h⟩) (n : ℕ) (h : n < N) (hn : n + 1 = N) :
    u n h = ∑ t : Fin N, g t := by
  have key : ∀ n (h : n < N), u n h = ∑ t : Fin (n + 1), g ⟨t.val, Nat.lt_of_lt_of_le t.isLt h⟩ := by
    intro n
    induction n with
    | zero => intro h; rw [Fin.sum_univ_one]; exact h0 h
    | succ n ih => intro h; rw [Fin.sum_univ_castSucc, hs, ih]; rfl
  subst hn; exact key n h

def rawAt (A0 A1 A2 : S50000x128.Idx → EReal) (p : Fin 50000) (q : Fin 128) : EReal :=
  A0 (ix2 p q) + Ideal.div (A1 (ix2 p q)) (A2 (ix2 p q) + epsC)

/-- The blocks tile the 50000 rows, so summing block by block over all the points sums over every row. -/
theorem rows_total {N : ℕ} (hN : 50000 = N * 2000) (A0 A1 A2 : S50000x128.Idx → EReal) (b0 b1 b2 : Fin N → Vec Ideal S2000x128 .f32)
    (hb : ∀ (t : Fin N) (r : Fin 2000) (q : Fin 128), k2_pay5 (F := Ideal) (b0 t) (b1 t) (b2 t) (ix2 r q)
      = rawAt A0 A1 A2 ⟨2000 * t.val + r.val, Cert.Lib.block_pos_lt hN t r⟩ q)
    (n : ℕ) (h : n < N) (hn : n + 1 = N) (q : Fin 128) :
    (rows b0 b1 b2 n h).1 (ix2 (0 : Fin 1) q) = ∑ p : Fin 50000, rawAt A0 A1 A2 p q
      ∧ (rows b0 b1 b2 n h).2 (ix2 (0 : Fin 1) q) = ∑ p : Fin 50000, rawAt A0 A1 A2 p q * rawAt A0 A1 A2 p q := by
  rw [← Cert.Lib.sum_blocks hN (fun p => rawAt A0 A1 A2 p q), ← Cert.Lib.sum_blocks hN (fun p => rawAt A0 A1 A2 p q * rawAt A0 A1 A2 p q)]
  simp only [← hb]
  exact ⟨sum_of_step (fun n h => (rows b0 b1 b2 n h).1 (ix2 (0 : Fin 1) q)) _
      (fun h => by refine (acc_apply _ _ _ _ _ _ _ q).trans ?_; exact (congrArg (· + _) (pay3_apply q)).trans (zero_add _))
      (fun n h => by exact acc_apply _ _ _ _ _ _ _ q) n h hn,
    sum_of_step (fun n h => (rows b0 b1 b2 n h).2 (ix2 (0 : Fin 1) q)) _
      (fun h => by refine (acc_apply _ _ _ _ _ _ _ q).trans ?_; exact (congrArg (· + _) (pay3_apply q)).trans (zero_add _))
      (fun n h => by exact acc_apply _ _ _ _ _ _ _ q) n h hn⟩

end Cert.KernelIdeal.HandV2
-- ==== Proof.KI.V2.lean ====
import proofs.«424071_j18090402251221_1_alg».proof.Proof.KI.R2
import proofs.«424071_j18090402251221_1_alg».proof.Proof.KI.Pay2
import Idealize.ShloMosaic.Lib.Pipeline.Value
import Idealize.ShloMosaic.Lib.ValueIdx

set_option maxRecDepth 16384

noncomputable section

namespace Cert.KernelIdeal.HandV2

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem rawAt_def (A0 A1 A2 : S50000x128.Idx → EReal) (p : Fin 50000) (q : Fin 128) :
    rawAt A0 A1 A2 p q = A0 (ix2 p q) + Ideal.div (A1 (ix2 p q)) (A2 (ix2 p q) + epsC) := rfl
theorem epsC_def : epsC = Ideal.ofBits .f32 0x358637BD#32 := rfl
theorem c50000_def : c50000 = Ideal.ofBits .f32 0x47435000#32 := rfl

/-- The block indices of the six windows, used below to place each block in its array. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

theorem hN2 : 50000 = cfg2.N * 2000 := by decide

abbrev Ah (c : Dev nD) : S50000x128.Idx → EReal := V c main_v4_0
abbrev num (c : Dev nD) : S50000x128.Idx → EReal := V c main_v11
abbrev den (c : Dev nD) : S50000x128.Idx → EReal := V c main_v14

theorem emb_row (t : Fin cfg2.N) (r : Fin 2000) (q : Fin 128) (e : S50000x128.Idx) {i0 i1 : ℕ} (hi : i0 = t.val ∧ i1 = 0)
    (e0 : (e 0).val = i0 * 2000 + 1 * r.val) (e1 : (e 1).val = i1 * 128 + 1 * q.val) :
    e = ix2 (⟨2000 * t.val + r.val, Cert.Lib.block_pos_lt hN2 t r⟩ : Fin 50000) q := by
  obtain ⟨rfl, rfl⟩ := hi
  funext a; apply Fin.ext
  match a with
  | ⟨0, _⟩ => show (e 0).val = 2000 * t.val + r.val; omega
  | ⟨1, _⟩ => show (e 1).val = q.val; omega

/-- The three input blocks sit at the same rows of their arrays, so the block's raw value is the arrays' raw value there. -/
theorem pay5_blk (c : Dev nD) (t : Fin cfg2.N) (r : Fin 2000) (q : Fin 128) :
    k2_pay5 (F := Ideal) (iblk2 V c 0 t) (iblk2 V c 1 t) (iblk2 V c 2 t) (ix2 r q)
      = rawAt (Ah V c) (num V c) (den V c) ⟨2000 * t.val + r.val, Cert.Lib.block_pos_lt hN2 t r⟩ q := by
  have e0 : iblk2 V c 0 t (ix2 r q) = Ah V c _ := congrArg (V c main_v4_0) (emb_row t r q (((cfg2.win 0).blk t).view.emb (ix2 r q)) (idx_facts t).1 rfl rfl)
  have e1 : iblk2 V c 1 t (ix2 r q) = num V c _ := congrArg (V c main_v11) (emb_row t r q (((cfg2.win 1).blk t).view.emb (ix2 r q)) (idx_facts t).2.1 rfl rfl)
  have e2 : iblk2 V c 2 t (ix2 r q) = den V c _ := congrArg (V c main_v14) (emb_row t r q (((cfg2.win 2).blk t).view.emb (ix2 r q)) (idx_facts t).2.2.1 rfl rfl)
  rw [pay5_apply, e0, e1, e2]; rfl

def G3 (c : Dev nD) : S50000x128.Idx → EReal := fun i => rawAt (Ah V c) (num V c) (den V c) (i 0) (i 1)

theorem flushed3_eq (c : Dev nD) (t : Fin cfg2.N) :
    (dat2 V c).flushed 3 t = ((cfg2.win 3).blk t).view.read (Elt Ideal) (G3 V c) := by
  show (cfg2.win 3).cut (grid2.coords t) ((dat2 V c).after 3 t) = _
  rw [after2_3_pay]
  funext j
  obtain ⟨r, q, rfl⟩ : ∃ (r : Fin 2000) (q : Fin 128), j = ix2 r q := ⟨j 0, j 1, eq_ix2 j⟩
  show k2_pay5 (F := Ideal) (iblk2 V c 0 t) (iblk2 V c 1 t) (iblk2 V c 2 t) (ix2 r q)
    = G3 V c (((cfg2.win 3).blk t).view.emb (ix2 r q))
  rw [emb_row t r q (((cfg2.win 3).blk t).view.emb (ix2 r q)) (idx_facts t).2.2.2.1 rfl rfl]
  exact pay5_blk V c t r q

theorem row_mem (i : S50000x128.Idx) {i0 i1 : ℕ} (hi : i0 = (i 0).val / 2000 ∧ i1 = 0) :
    (i0 * 2000 ≤ (i 0).val ∧ (i 0).val < i0 * 2000 + 2000) ∧ (i1 * 128 ≤ (i 1).val ∧ (i 1).val < i1 * 128 + 128) := by
  obtain ⟨rfl, rfl⟩ := hi
  have hi1 : (i 1).val < 128 := (i 1).isLt
  omega

theorem cover3 (i : S50000x128.Idx) :
    ∃ t : Fin cfg2.N, (cfg2.win 3).flush t = true ∧ i ∈ ((cfg2.win 3).blk t).view.set := by
  have hi0 : (i 0).val < 50000 := (i 0).isLt
  have hlt : (i 0).val / 2000 < cfg2.N := by show (i 0).val / 2000 < 25; omega
  refine ⟨⟨(i 0).val / 2000, hlt⟩, flush2_3 _, ?_⟩
  show i ∈ ((View.whole main_v15_0).slice (win2_3.rect ⟨(i 0).val / 2000, hlt⟩)).set
  rw [View.set_slice_whole, Rect.mem_set_unit]
  exact Fin.forall_fin_two.mpr (row_mem i (idx_facts ⟨(i 0).val / 2000, hlt⟩).2.2.2.1)

theorem arr2_3 (c : Dev nD) (p : Fin 50000) (q : Fin 128) :
    ((dat2 (F := Ideal) V c).arrAt 3 cfg2.N : S50000x128.Idx → EReal) (ix2 p q)
      = rawAt (Ah V c) (num V c) (den V c) p q := by
  rw [(dat2 V c).arrAt_eq_of_cover 3 (G3 V c) (fun t _ => flushed3_eq V c t) cover3]
  rfl

theorem acc2_eq_rows (c : Dev nD) (n : ℕ) (h : n < cfg2.N) :
    acc2 V c n h = rows (iblk2 V c 0) (iblk2 V c 1) (iblk2 V c 2) n h := by
  induction n with
  | zero => rfl
  | succ n ih => rw [acc2_succ, ih (Nat.lt_of_succ_lt h)]; rfl

/-- The running rows follow `rows` step for step, and its total is known. -/
theorem acc2_last (c : Dev nD) (t : Fin cfg2.N) (ht : t.val % 25 = 24) (q : Fin 128) :
    (acc2 V c t.val t.isLt).1 (ix2 (0 : Fin 1) q) = ∑ p : Fin 50000, rawAt (Ah V c) (num V c) (den V c) p q
      ∧ (acc2 V c t.val t.isLt).2 (ix2 (0 : Fin 1) q)
        = ∑ p : Fin 50000, rawAt (Ah V c) (num V c) (den V c) p q * rawAt (Ah V c) (num V c) (den V c) p q := by
  have hN : t.val < 25 := t.isLt
  rw [acc2_eq_rows]
  exact rows_total hN2 (Ah V c) (num V c) (den V c) (iblk2 V c 0) (iblk2 V c 1) (iblk2 V c 2) (pay5_blk V c) t.val t.isLt (by show t.val + 1 = 25; omega) q

def G4 (c : Dev nD) : S1x128.Idx → EReal := fun i => Ideal.div (∑ p : Fin 50000, rawAt (Ah V c) (num V c) (den V c) p (i 1)) c50000

def G5 (c : Dev nD) : S1x128.Idx → EReal :=
  fun i => Ideal.div (∑ p : Fin 50000, rawAt (Ah V c) (num V c) (den V c) p (i 1) * rawAt (Ah V c) (num V c) (den V c) p (i 1)) c50000 - G4 V c i * G4 V c i

theorem emb_stat (q : Fin 128) (e : S1x128.Idx) {i0 i1 : ℕ} (hi : i0 = 0 ∧ i1 = 0)
    (e0 : (e 0).val = i0 * 1 + 1 * 0) (e1 : (e 1).val = i1 * 128 + 1 * q.val) : e = ix2 (0 : Fin 1) q := by
  obtain ⟨rfl, rfl⟩ := hi
  funext a; apply Fin.ext
  match a with
  | ⟨0, _⟩ => show (e 0).val = 0; omega
  | ⟨1, _⟩ => show (e 1).val = q.val; omega

/-- The first coordinate of a 1×128 index can only be 0. -/
theorem stat_ext {X Y : S1x128.Idx → EReal} (h : ∀ q : Fin 128, X (ix2 (0 : Fin 1) q) = Y (ix2 (0 : Fin 1) q)) : X = Y := by
  funext j
  obtain ⟨u, q, rfl⟩ : ∃ (u : Fin 1) (q : Fin 128), j = ix2 u q := ⟨j 0, j 1, eq_ix2 j⟩
  obtain rfl : u = 0 := Subsingleton.elim _ _
  exact h q

/-- A row output has one block, and it is the whole array. -/
theorem stat_mem (i : S1x128.Idx) {i0 i1 : ℕ} (hi : i0 = 0 ∧ i1 = 0) :
    (i0 * 1 ≤ (i 0).val ∧ (i 0).val < i0 * 1 + 1) ∧ (i1 * 128 ≤ (i 1).val ∧ (i 1).val < i1 * 128 + 128) := by
  obtain ⟨rfl, rfl⟩ := hi
  have hi0 : (i 0).val < 1 := (i 0).isLt
  have hi1 : (i 1).val < 128 := (i 1).isLt
  omega

theorem flushed4_eq (c : Dev nD) (t : Fin cfg2.N) (hf : (cfg2.win 4).flush t = true) :
    (dat2 V c).flushed 4 t = ((cfg2.win 4).blk t).view.read (Elt Ideal) (G4 V c) := by
  have ht := (flush2_4 t).mp hf
  show (cfg2.win 4).cut (grid2.coords t) ((dat2 V c).after 4 t) = _
  rw [after2_4_pay]
  refine stat_ext fun q => ?_
  show k2_pay1 (F := Ideal) (acc2 V c t.val t.isLt).1 (ix2 (0 : Fin 1) q)
    = G4 V c (((cfg2.win 4).blk t).view.emb (ix2 (0 : Fin 1) q))
  rw [emb_stat q (((cfg2.win 4).blk t).view.emb (ix2 (0 : Fin 1) q)) (idx_facts t).2.2.2.2.1 rfl rfl, pay1_apply, (acc2_last V c t ht q).1]
  rfl

theorem flushed5_eq (c : Dev nD) (t : Fin cfg2.N) (hf : (cfg2.win 5).flush t = true) :
    (dat2 V c).flushed 5 t = ((cfg2.win 5).blk t).view.read (Elt Ideal) (G5 V c) := by
  have ht := (flush2_5 t).mp hf
  show (cfg2.win 5).cut (grid2.coords t) ((dat2 V c).after 5 t) = _
  rw [after2_5_pay]
  refine stat_ext fun q => ?_
  show k2_pay2 (F := Ideal) (acc2 V c t.val t.isLt).1 (acc2 V c t.val t.isLt).2 (ix2 (0 : Fin 1) q)
    = G5 V c (((cfg2.win 5).blk t).view.emb (ix2 (0 : Fin 1) q))
  rw [emb_stat q (((cfg2.win 5).blk t).view.emb (ix2 (0 : Fin 1) q)) (idx_facts t).2.2.2.2.2 rfl rfl, pay2_apply, (acc2_last V c t ht q).1, (acc2_last V c t ht q).2]
  rfl

def tLast : Fin cfg2.N := ⟨24, by decide⟩

theorem cover4 (i : S1x128.Idx) :
    ∃ t : Fin cfg2.N, (cfg2.win 4).flush t = true ∧ i ∈ ((cfg2.win 4).blk t).view.set := by
  refine ⟨tLast, (flush2_4 tLast).mpr rfl, ?_⟩
  show i ∈ ((View.whole main_v15_1).slice (win2_4.rect tLast)).set
  rw [View.set_slice_whole, Rect.mem_set_unit]
  exact Fin.forall_fin_two.mpr (stat_mem i (idx_facts tLast).2.2.2.2.1)

theorem cover5 (i : S1x128.Idx) :
    ∃ t : Fin cfg2.N, (cfg2.win 5).flush t = true ∧ i ∈ ((cfg2.win 5).blk t).view.set := by
  refine ⟨tLast, (flush2_5 tLast).mpr rfl, ?_⟩
  show i ∈ ((View.whole main_v15_2).slice (win2_5.rect tLast)).set
  rw [View.set_slice_whole, Rect.mem_set_unit]
  exact Fin.forall_fin_two.mpr (stat_mem i (idx_facts tLast).2.2.2.2.2)

theorem arr2_4 (c : Dev nD) (q : Fin 128) :
    ((dat2 (F := Ideal) V c).arrAt 4 cfg2.N : S1x128.Idx → EReal) (ix2 (0 : Fin 1) q)
      = Ideal.div (∑ p : Fin 50000, rawAt (Ah V c) (num V c) (den V c) p q) c50000 := by
  rw [(dat2 V c).arrAt_eq_of_cover 4 (G4 V c) (flushed4_eq V c) cover4]
  rfl

theorem arr2_5 (c : Dev nD) (q : Fin 128) :
    ((dat2 (F := Ideal) V c).arrAt 5 cfg2.N : S1x128.Idx → EReal) (ix2 (0 : Fin 1) q)
      = Ideal.div (∑ p : Fin 50000, rawAt (Ah V c) (num V c) (den V c) p q * rawAt (Ah V c) (num V c) (den V c) p q) c50000
        - Ideal.div (∑ p : Fin 50000, rawAt (Ah V c) (num V c) (den V c) p q) c50000
          * Ideal.div (∑ p : Fin 50000, rawAt (Ah V c) (num V c) (den V c) p q) c50000 := by
  rw [(dat2 V c).arrAt_eq_of_cover 5 (G5 V c) (flushed5_eq V c) cover5]
  rfl

end Cert.KernelIdeal.HandV2

end
-- ==== Proof.Join.Stats.lean ====
import proofs.«424071_j18090402251221_1_alg».proof.Proof.KI.Run
import proofs.«424071_j18090402251221_1_alg».proof.Proof.KI.V2
import proofs.«424071_j18090402251221_1_alg».proof.Proof.Mesh

noncomputable section

open scoped BigOperators

namespace Cert.Join

open Idealize.ShloMosaic Idealize.ShloMosaic.TcCoe Idealize.ShloMosaic.ValueIdx
open Idealize.SL Idealize.SL.Sem
open Cert.KernelIdeal Cert.KernelIdeal.Hand
open Cert.ReferenceIdeal.Stages Cert.ReferenceIdeal.StageRead

variable [Cert.ReferenceIdeal.Facts]

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (ah nu de : FVec Ideal Cert.ReferenceIdeal.S50000x128 .f32)
  (hA : (Hand.V7 m ρ c main_v4_0 : FVec Ideal Cert.ReferenceIdeal.S50000x128 .f32) = ah)
  (hN : (Hand.V7 m ρ c main_v11 : FVec Ideal Cert.ReferenceIdeal.S50000x128 .f32) = nu)
  (hD : (Hand.V7 m ρ c main_v14 : FVec Ideal Cert.ReferenceIdeal.S50000x128 .f32) = de)

include hA hN hD in

theorem rawAt_eq (p : Fin 50000) (q : Fin 128) :
    HandV2.rawAt (HandV2.Ah (Hand.V7 m ρ) c) (HandV2.num (Hand.V7 m ρ) c) (HandV2.den (Hand.V7 m ρ) c) p q
      = refRaw (F := Ideal) ah nu de (ix2 p q) := by
  subst hA hN hD
  rw [HandV2.rawAt_def, HandV2.epsC_def]
  exact (refRaw_apply _ _ _ _).symm

include hA hN hD in

theorem kRaw : (W8 m ρ c (Proc.devRef .tc main_v15_0) : FVec Ideal Cert.ReferenceIdeal.S50000x128 .f32)
    = refRaw (F := Ideal) ah nu de := by
  refine Cert.Mesh.mesh_raw ah nu de _ fun p q => ?_
  exact ((congrFun (W8_arr m ρ c 3) _).trans (HandV2.arr2_3 (Hand.V7 m ρ) c p q)).trans
    ((rawAt_eq m ρ c ah nu de hA hN hD p q).trans (refRaw_apply _ _ _ _))

include hA hN hD in

theorem kMean (q : Fin 128) :
    (W8 m ρ c (Proc.devRef .tc main_v15_1) : FVec Ideal Cert.ReferenceIdeal.S1x128 .f32) (ix2 (0 : Fin 1) q)
      = refMean (F := Ideal) (refRaw (F := Ideal) ah nu de) (ix1 q) := by
  refine Cert.Mesh.mesh_mean (refRaw (F := Ideal) ah nu de) _ (fun q => ?_) q
  refine ((congrFun (W8_arr m ρ c 4) _).trans (HandV2.arr2_4 (Hand.V7 m ρ) c q)).trans ?_
  simp only [HandV2.c50000_def, rawAt_eq m ρ c ah nu de hA hN hD]

include hA hN hD in

theorem kVar (hreal : ∀ i, ∃ r : ℝ, refRaw (F := Ideal) ah nu de i = (r : EReal)) (q : Fin 128) :
    (W8 m ρ c (Proc.devRef .tc main_v15_2) : FVec Ideal Cert.ReferenceIdeal.S1x128 .f32) (ix2 (0 : Fin 1) q)
      = refVar (F := Ideal) (refRaw (F := Ideal) ah nu de) (ix1 q) := by
  refine Cert.Mesh.mesh_var (refRaw (F := Ideal) ah nu de) hreal _ (fun q => ?_) q
  refine ((congrFun (W8_arr m ρ c 5) _).trans (HandV2.arr2_5 (Hand.V7 m ρ) c q)).trans ?_
  simp only [HandV2.c50000_def, rawAt_eq m ρ c ah nu de hA hN hD]

end Cert.Join

end
-- ==== Proof.KI.V3.lean ====
import proofs.«424071_j18090402251221_1_alg».proof.Proof.KI.R3
import proofs.«424071_j18090402251221_1_alg».proof.Proof.LibBlocks
import Idealize.ShloMosaic.Lib.Pipeline.Value
import Idealize.ShloMosaic.PureOps.Ideal.Laws

noncomputable section

namespace Cert.KernelIdeal.HandV3

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The residual h plus the positive part of the normalised value: (raw - mean) / √(var + ε) · gamma + beta. -/
def norm3 (h raw mean var gamma beta : EReal) : EReal :=
  h + max ((((raw - mean) * Ideal.rsqrt (var + Ideal.ofBits .f32 0x3727C5AC#32)) * gamma) + beta) 0

theorem bcast_row (x : S1x128.Idx → EReal) :
    broadcastTo S2000x128 x broadcasts_S1x128_S2000x128 = fun j => x (ix2 0 (j 1)) :=
  funext fun j => broadcastTo_apply x _ j (ix2 0 (j 1)) fun a => by
    match a with
    | ⟨0, _⟩ => rfl
    | ⟨1, _⟩ => rfl

/-- Every operation is elementwise once the four rows are repeated along the rows of the block. -/
theorem out_apply (x0 : S2000x128.Idx → EReal) (x1 x2 x3 x4 : S1x128.Idx → EReal) (x5 : S2000x128.Idx → EReal) (r : Fin 2000) (q : Fin 128) :
    out3_6 (F := Ideal) x0 x1 x2 x3 x4 x5 (ix2 r q)
      = norm3 (x5 (ix2 r q)) (x0 (ix2 r q)) (x1 (ix2 0 q)) (x2 (ix2 0 q)) (x3 (ix2 0 q)) (x4 (ix2 0 q)) := by
  rw [out3_6, View.canon_unit_zero Cert.Lib.zero2]
  simp only [View.ld_unit_zero (S := S2000x128) Cert.Lib.zero2, View.ld_unit_zero (S := S1x128) Cert.Lib.zero2, k3_pay1, shapeCast_self, bcast_row]
  show (_ : EReal) + max _ (Ideal.ofBits .f32 0x00000000#32) = _
  rw [Ideal.ofBits_zero_f32]
  rfl

variable (V : (c : Dev nD) → (b : Ref sig .tc) → Buf (Elt Ideal) ((c : Thread nD τ).loc b))

abbrev raw3 (c : Dev nD) : S50000x128.Idx → EReal := V c main_v15_0
abbrev mean3 (c : Dev nD) : S1x128.Idx → EReal := V c main_v15_1
abbrev var3 (c : Dev nD) : S1x128.Idx → EReal := V c main_v15_2
abbrev gamma3 (c : Dev nD) : S1x128.Idx → EReal := V c main_v16
abbrev beta3 (c : Dev nD) : S1x128.Idx → EReal := V c main_v17
abbrev res3 (c : Dev nD) : S50000x128.Idx → EReal := V c main_arg0

def G3 (c : Dev nD) (i : S50000x128.Idx) : EReal :=
  norm3 (res3 V c i) (raw3 V c i) (mean3 V c (ix2 0 (i 1))) (var3 V c (ix2 0 (i 1))) (gamma3 V c (ix2 0 (i 1))) (beta3 V c (ix2 0 (i 1)))

theorem idx3 : ∀ t : Fin cfg3.N, win3_0.index t 0 = t.val := (by decide +kernel : ∀ t : Fin grid3.N, _)

theorem whole1 (t : Fin cfg3.N) (q : Fin 128) : (win3_1.rect t).emb (ix2 0 q) = ix2 0 q :=
  funext fun a => Fin.ext (win3_1.rect_emb_val_of_index_zero t a (congrFun Cert.Lib.zero2 a) _)

theorem row_emb (t : Fin cfg3.N) (r : Fin 2000) :
    ∃ p : Fin 50000, p.val = t.val * 2000 + r.val ∧ ∀ q : Fin 128, (win3_0.rect t).emb (ix2 r q) = ix2 p q :=
  Cert.Lib.row_emb (congrArg (· * 2000) (idx3 t)) rfl r

/-- A point's block is computed element by element from the same rows of raw and res and from the four whole rows, so it is that block of G3. -/
theorem blk_norm (c : Dev nD) (t : Fin cfg3.N) {X x0 x5 : S2000x128.Idx → EReal} {x1 x2 x3 x4 : S1x128.Idx → EReal}
    (hX : X = out3_6 (F := Ideal) x0 x1 x2 x3 x4 x5)
    (h0 : x0 = fun z => raw3 V c ((win3_0.rect t).emb z)) (h1 : x1 = fun z => mean3 V c ((win3_1.rect t).emb z))
    (h2 : x2 = fun z => var3 V c ((win3_1.rect t).emb z)) (h3 : x3 = fun z => gamma3 V c ((win3_1.rect t).emb z))
    (h4 : x4 = fun z => beta3 V c ((win3_1.rect t).emb z)) (h5 : x5 = fun z => res3 V c ((win3_0.rect t).emb z)) :
    X = fun y => G3 V c ((win3_0.rect t).emb y) := by
  subst hX h0 h1 h2 h3 h4 h5
  funext y
  obtain ⟨r, q, rfl⟩ : ∃ r q, y = ix2 r q := ⟨_, _, eq_ix2 y⟩
  obtain ⟨p, -, hp⟩ := row_emb t r
  rewrite [out_apply, G3]
  dsimp only
  rewrite [hp, whole1]
  rfl

theorem arr3_6 (c : Dev nD) (p : Fin 50000) (q : Fin 128) :
    ((dat3 (F := Ideal) V c).arrAt 6 cfg3.N : S50000x128.Idx → EReal) (ix2 p q)
      = res3 V c (ix2 p q)
        + max ((((raw3 V c (ix2 p q) - mean3 V c (ix2 0 q)) * Ideal.rsqrt (var3 V c (ix2 0 q) + Ideal.ofBits .f32 0x3727C5AC#32))
            * gamma3 V c (ix2 0 q)) + beta3 V c (ix2 0 q)) 0 :=
  congrFun ((dat3 V c).arrAt_eq_of_cover 6 (G3 V c) (fun t _ => blk_norm V c t (after3_6 V c t) rfl rfl rfl rfl rfl rfl)
    (Cert.Lib.cover_rows (n := 2000) (fun t => congrArg (· * 2000) (idx3 t)) (fun _ => rfl) le_rfl flush3_6)) (ix2 p q)

end Cert.KernelIdeal.HandV3

end
-- ==== Proof.Join.Out.lean ====
import proofs.«424071_j18090402251221_1_alg».proof.Proof.KI.Chain
import proofs.«424071_j18090402251221_1_alg».proof.Proof.KI.Run
import proofs.«424071_j18090402251221_1_alg».proof.Proof.KI.V3
import proofs.«424071_j18090402251221_1_alg».proof.Proof.Mesh

noncomputable section

namespace Cert.Join

open Idealize.ShloMosaic Idealize.ShloMosaic.TcCoe Idealize.SL.Sem Idealize.ShloMosaic.ValueIdx
open Cert.KernelIdeal Cert.KernelIdeal.Hand
open Cert.ReferenceIdeal.Stages

variable [Cert.ReferenceIdeal.Facts]

theorem kOut (m : (ℓ : Loc nD τ sig) → Buf (Elt Ideal) ℓ) (ρ : Dev nD → PrngReg) (c : Dev nD)
    (Raw : FVec Ideal Cert.ReferenceIdeal.S50000x128 .f32) (Mean Var : FVec Ideal Cert.ReferenceIdeal.S128 .f32)
    (hR : W8 m ρ c (Proc.devRef .tc main_v15_0) = Raw)
    (hM : ∀ q : Fin 128,
      (W8 m ρ c (Proc.devRef .tc main_v15_1) : FVec Ideal Cert.ReferenceIdeal.S1x128 .f32) (ix2 (0 : Fin 1) q) = Mean (ix1 q))
    (hV : ∀ q : Fin 128,
      (W8 m ρ c (Proc.devRef .tc main_v15_2) : FVec Ideal Cert.ReferenceIdeal.S1x128 .f32) (ix2 (0 : Fin 1) q) = Var (ix1 q)) :
    (W10 m ρ c (Proc.devRef .tc main_v18) : FVec Ideal Cert.ReferenceIdeal.S50000x128 .f32)
      = refOut (F := Ideal) (m ((c : Thread nD τ).loc main_arg0)) Raw Mean Var
          (m ((c : Thread nD τ).loc main_arg12)) (m ((c : Thread nD τ).loc main_arg13)) := by
  subst hR
  rw [← Chain.in3_h m ρ c, ← Chain.in3_raw m ρ c]
  exact Cert.Mesh.mesh_out _ _ _ _ _ _ _ _ _ _
    (fun q => (congrFun (Chain.in3_mean m ρ c) _).trans (hM q)) (fun q => (congrFun (Chain.in3_var m ρ c) _).trans (hV q))
    (fun q => (congrFun (Chain.in3_g m ρ c) _).trans (Cert.Mesh.row_apply _ _ q))
    (fun q => (congrFun (Chain.in3_b m ρ c) _).trans (Cert.Mesh.row_apply _ _ q))
    _ fun p q => (congrFun (Chain.out3 m ρ c) _).trans (HandV3.arr3_6 (V9 m ρ) c p q)

theorem refRes_unfold {F : FTy → Type} [FloatOps F]
    (h : FVec F Cert.ReferenceIdeal.S50000x128 .f32) (src dst : IVec Cert.ReferenceIdeal.S600000 32)
    (aw : FVec F Cert.ReferenceIdeal.S128x128 .f32) (ab : FVec F Cert.ReferenceIdeal.S128 .f32)
    (bw : FVec F Cert.ReferenceIdeal.S128x128 .f32) (bv : FVec F Cert.ReferenceIdeal.S128 .f32)
    (dw : FVec F Cert.ReferenceIdeal.S128x128 .f32) (db : FVec F Cert.ReferenceIdeal.S128 .f32)
    (ew : FVec F Cert.ReferenceIdeal.S128x128 .f32) (eb : FVec F Cert.ReferenceIdeal.S128 .f32)
    (gamma beta : FVec F Cert.ReferenceIdeal.S128 .f32) :
    refRes h src dst aw ab bw bv dw db ew eb gamma beta
      = refOut h
          (refRaw (refProj h aw ab)
            (refAgg (mulf (refSigma (refRows (refProj h dw db) src) (refRows (refProj h ew eb) dst)) (refRows (refProj h bw bv) src)) dst)
            (refAgg (refSigma (refRows (refProj h dw db) src) (refRows (refProj h ew eb) dst)) dst))
          (refMean (refRaw (refProj h aw ab)
            (refAgg (mulf (refSigma (refRows (refProj h dw db) src) (refRows (refProj h ew eb) dst)) (refRows (refProj h bw bv) src)) dst)
            (refAgg (refSigma (refRows (refProj h dw db) src) (refRows (refProj h ew eb) dst)) dst)))
          (refVar (refRaw (refProj h aw ab)
            (refAgg (mulf (refSigma (refRows (refProj h dw db) src) (refRows (refProj h ew eb) dst)) (refRows (refProj h bw bv) src)) dst)
            (refAgg (refSigma (refRows (refProj h dw db) src) (refRows (refProj h ew eb) dst)) dst)))
          gamma beta := rfl

end Cert.Join

end
-- ==== Proof.Ref.Finite.lean ====
import proofs.«424071_j18090402251221_1_alg».proof.Proof.Ref.Stages
import proofs.«424071_j18090402251221_1_alg».proof.Proof.Ref.Read
import proofs.«424071_j18090402251221_1_alg».proof.Proof.Ref.Math

noncomputable section

open scoped BigOperators

namespace Cert.ReferenceIdeal.StageFinite

open Idealize.ShloMosaic Idealize.ShloMosaic.ValueIdx Cert.ReferenceIdeal Cert.ReferenceIdeal.Stages
open Cert.ReferenceIdeal.Facts₀ Cert.ReferenceIdeal.Facts
open Cert.ReferenceIdeal.StageRead Cert.RealMath

variable [Cert.ReferenceIdeal.Facts]

theorem refProj_real (h : FVec Ideal S50000x128 .f32) (w : FVec Ideal S128x128 .f32) (b : FVec Ideal S128 .f32)
    (hh : ∀ i, ∃ x : ℝ, h i = (x : EReal)) (hw : ∀ i, ∃ x : ℝ, w i = (x : EReal))
    (hb : ∀ i, ∃ x : ℝ, b i = (x : EReal)) :
    ∀ i, ∃ x : ℝ, refProj (F := Ideal) h w b i = (x : EReal) := by
  intro i
  obtain ⟨p, q, rfl⟩ : ∃ (p : Fin 50000) (q : Fin 128), i = ix2 p q := ⟨i 0, i 1, eq_ix2 i⟩
  rw [refProj_apply]
  exact add_real (sum_real _ fun k => mul_real (hh _) (hw _)) (hb _)

theorem refRows_real (t : FVec Ideal S50000x128 .f32) (idx : IVec S600000 32)
    (ht : ∀ i, ∃ x : ℝ, t i = (x : EReal))
    (hidx : ∀ e : Fin 600000, 0 ≤ (idx (ix1 e)).toInt ∧ (idx (ix1 e)).toInt < 50000) :
    ∀ i, ∃ x : ℝ, refRows (F := Ideal) t idx i = (x : EReal) := by
  intro i
  obtain ⟨e, q, rfl⟩ : ∃ (e : Fin 600000) (q : Fin 128), i = ix2 e q := ⟨i 0, i 1, eq_ix2 i⟩
  rw [refRows_apply t idx e q (hidx e).1 (hidx e).2]
  exact ht _

theorem refSigma_pos (d e : FVec Ideal S600000x128 .f32)
    (hd : ∀ i, ∃ x : ℝ, d i = (x : EReal)) (he : ∀ i, ∃ x : ℝ, e i = (x : EReal)) :
    ∀ i, ∃ s : ℝ, 0 < s ∧ refSigma (F := Ideal) d e i = (s : EReal) := by
  intro i
  rw [refSigma_apply]
  exact sigma_pos_of_real (add_real (hd i) (he i))

theorem mulf_real {s : Shape} (a b : FVec Ideal s .f32)
    (ha : ∀ i, ∃ x : ℝ, a i = (x : EReal)) (hb : ∀ i, ∃ x : ℝ, b i = (x : EReal)) :
    ∀ i, ∃ x : ℝ, mulf a b i = (x : EReal) := by
  intro i
  rw [mulf_apply]
  exact mul_real (ha i) (hb i)

theorem refAgg_real (u : FVec Ideal S600000x128 .f32) (dst : IVec S600000 32)
    (hu : ∀ i, ∃ x : ℝ, u i = (x : EReal)) :
    ∀ i, ∃ x : ℝ, refAgg (F := Ideal) u dst i = (x : EReal) := by
  intro i
  obtain ⟨n, c, rfl⟩ : ∃ (n : Fin 50000) (c : Fin 128), i = ix2 n c := ⟨i 0, i 1, eq_ix2 i⟩
  rw [refAgg_apply]
  exact finset_sum_real _ _ fun m _ => hu _

theorem refAgg_nonneg (u : FVec Ideal S600000x128 .f32) (dst : IVec S600000 32)
    (hu : ∀ i, ∃ x : ℝ, 0 ≤ x ∧ u i = (x : EReal)) :
    ∀ i, ∃ x : ℝ, 0 ≤ x ∧ refAgg (F := Ideal) u dst i = (x : EReal) := by
  intro i
  obtain ⟨n, c, rfl⟩ : ∃ (n : Fin 50000) (c : Fin 128), i = ix2 n c := ⟨i 0, i 1, eq_ix2 i⟩
  rw [refAgg_apply]
  exact finset_sum_nonneg_real _ _ fun m _ => hu _

theorem refRaw_real (ah num den : FVec Ideal S50000x128 .f32)
    (hah : ∀ i, ∃ x : ℝ, ah i = (x : EReal)) (hnum : ∀ i, ∃ x : ℝ, num i = (x : EReal))
    (hden : ∀ i, ∃ x : ℝ, 0 ≤ x ∧ den i = (x : EReal)) :
    ∀ i, ∃ x : ℝ, refRaw (F := Ideal) ah num den i = (x : EReal) := by
  intro i
  rw [refRaw_apply]
  exact add_real (hah i) (quot_real_of (hnum i) (hden i) ofBits_eps6)

theorem raw_real (h : FVec Ideal S50000x128 .f32) (src dst : IVec S600000 32)
    (aw : FVec Ideal S128x128 .f32) (ab : FVec Ideal S128 .f32) (bw : FVec Ideal S128x128 .f32) (bv : FVec Ideal S128 .f32)
    (dw : FVec Ideal S128x128 .f32) (db : FVec Ideal S128 .f32) (ew : FVec Ideal S128x128 .f32) (eb : FVec Ideal S128 .f32)
    (hh : ∀ i, ∃ x : ℝ, h i = (x : EReal))
    (haw : ∀ i, ∃ x : ℝ, aw i = (x : EReal)) (hab : ∀ i, ∃ x : ℝ, ab i = (x : EReal))
    (hbw : ∀ i, ∃ x : ℝ, bw i = (x : EReal)) (hbv : ∀ i, ∃ x : ℝ, bv i = (x : EReal))
    (hdw : ∀ i, ∃ x : ℝ, dw i = (x : EReal)) (hdb : ∀ i, ∃ x : ℝ, db i = (x : EReal))
    (hew : ∀ i, ∃ x : ℝ, ew i = (x : EReal)) (heb : ∀ i, ∃ x : ℝ, eb i = (x : EReal))
    (hsrc : ∀ e : Fin 600000, 0 ≤ (src (ix1 e)).toInt ∧ (src (ix1 e)).toInt < 50000)
    (hdst : ∀ e : Fin 600000, 0 ≤ (dst (ix1 e)).toInt ∧ (dst (ix1 e)).toInt < 50000) :
    ∀ i, ∃ x : ℝ,
      refRaw (F := Ideal) (refProj h aw ab)
        (refAgg (mulf (refSigma (refRows (refProj h dw db) src) (refRows (refProj h ew eb) dst))
          (refRows (refProj h bw bv) src)) dst)
        (refAgg (refSigma (refRows (refProj h dw db) src) (refRows (refProj h ew eb) dst)) dst) i = (x : EReal) := by
  have hsig := refSigma_pos (refRows (refProj h dw db) src) (refRows (refProj h ew eb) dst)
    (refRows_real _ src (refProj_real h dw db hh hdw hdb) hsrc)
    (refRows_real _ dst (refProj_real h ew eb hh hew heb) hdst)
  exact refRaw_real _ _ _ (refProj_real h aw ab hh haw hab)
    (refAgg_real _ dst (mulf_real _ _ (fun i => real_of_pos (hsig i))
      (refRows_real _ src (refProj_real h bw bv hh hbw hbv) hsrc)))
    (refAgg_nonneg _ dst fun i => nonneg_of_pos (hsig i))

end Cert.ReferenceIdeal.StageFinite

end
-- ==== Proof.PreFacts.lean ====
import proofs.«424071_j18090402251221_1_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx
open Cert.Pre_finite_inputs

instance : Subsingleton S_.Idx := ⟨fun a b => funext fun d => d.elim0⟩

theorem inf_bits : Ideal.ofBits .f32 0x7F800000#32 = (⊤ : EReal) := by
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

def finBit {F : FTy → Type} [FloatOps F] {s : Shape} {axes : List (Fin s.rank)} (x : FVec F s .f32)
    (hb : S_.BroadcastsInDim s (![] : Fin 0 → Fin s.rank)) (hr : s.ReducesTo axes S_) (h0 : 0 < S_.numel) : BitVec 1 :=
  Host.reduce IntOp.andi (cmpf .olt (Host.absf x) (broadcastInDim s ![] hb (constant S_ .f32 0x7F800000#32)))
    (constantI S_ 1 1#1) hr h0 ix0

def rngBit {s : Shape} {axes : List (Fin s.rank)} (idx : IVec s 32)
    (hb : S_.BroadcastsInDim s (![] : Fin 0 → Fin s.rank)) (hr : s.ReducesTo axes S_) (h0 : 0 < S_.numel) : BitVec 1 :=
  Host.reduce IntOp.andi (andi (cmpi .sge idx (broadcastInDim s ![] hb (constantI S_ 32 0#32)))
      (cmpi .slt idx (broadcastInDim s ![] hb (constantI S_ 32 50000#32))))
    (constantI S_ 1 1#1) hr h0 ix0

theorem real_of_all {s : Shape} {axes : List (Fin s.rank)} (x : FVec Ideal s .f32)
    (hb : S_.BroadcastsInDim s (![] : Fin 0 → Fin s.rank)) (hr : s.ReducesTo axes S_) (h0 : 0 < S_.numel)
    (e : finBit x hb hr h0 = 1#1) (i : s.Idx) : ∃ r : ℝ, x i = (r : EReal) := by
  have hi := Host.reduce_andi_all _ _ hr h0 ix0 e i
  apply real_of_abs_lt_top
  have hi' : Ideal.cmp .olt (max (x i) (-(x i))) (Ideal.ofBits .f32 0x7F800000#32) = 1#1 := hi
  rw [inf_bits] at hi'
  exact of_decide_eq_true ((BitVec.ofBool_eq_iff_eq (b' := true)).1 hi')

theorem range_of_all {s : Shape} {axes : List (Fin s.rank)} (idx : IVec s 32)
    (hb : S_.BroadcastsInDim s (![] : Fin 0 → Fin s.rank)) (hr : s.ReducesTo axes S_) (h0 : 0 < S_.numel)
    (e : rngBit idx hb hr h0 = 1#1) (i : s.Idx) : 0 ≤ (idx i).toInt ∧ (idx i).toInt < 50000 := by
  have hi := Host.reduce_andi_all _ _ hr h0 ix0 e i
  obtain ⟨h1, h2⟩ := IntOp.andi_eq_one.1 hi
  have h1' : IntOp.cmpi .sge (idx i) 0#32 = 1#1 := h1
  have h2' : IntOp.cmpi .slt (idx i) 50000#32 = 1#1 := h2
  rw [IntOp.cmpi_sge] at h1'
  rw [IntOp.cmpi_slt] at h2'
  exact ⟨by simpa using h1', by simpa using h2'⟩

section
variable [Cert.Pre_finite_inputs.Facts]
variable (a0 : FVec Ideal S50000x128 .f32) (a1 : FVec Ideal S600000x128 .f32) (a2 a3 : IVec S600000 32)
  (a4 : FVec Ideal S128x128 .f32) (a5 : FVec Ideal S128 .f32) (a6 : FVec Ideal S128x128 .f32) (a7 : FVec Ideal S128 .f32)
  (a8 : FVec Ideal S128x128 .f32) (a9 : FVec Ideal S128 .f32) (a10 : FVec Ideal S128x128 .f32) (a11 a12 a13 : FVec Ideal S128 .f32)
  (h : Cert.Pre_finite_inputs.fn (F := Ideal) a0 a1 a2 a3 a4 a5 a6 a7 a8 a9 a10 a11 a12 a13 = fun _ => 1#1)
include h

open Cert.Pre_finite_inputs.Facts in
/-- The precondition is a conjunction of one bit per input: every float entry finite, every index in range. -/
theorem facts : (∀ i, ∃ x : ℝ, a0 i = (x : EReal)) ∧ (∀ e : Fin 600000, 0 ≤ (a2 (ix1 e)).toInt ∧ (a2 (ix1 e)).toInt < 50000)
    ∧ (∀ e : Fin 600000, 0 ≤ (a3 (ix1 e)).toInt ∧ (a3 (ix1 e)).toInt < 50000)
    ∧ (∀ i, ∃ x : ℝ, a4 i = (x : EReal)) ∧ (∀ i, ∃ x : ℝ, a5 i = (x : EReal)) ∧ (∀ i, ∃ x : ℝ, a6 i = (x : EReal)) ∧ (∀ i, ∃ x : ℝ, a7 i = (x : EReal))
    ∧ (∀ i, ∃ x : ℝ, a8 i = (x : EReal)) ∧ (∀ i, ∃ x : ℝ, a9 i = (x : EReal)) ∧ (∀ i, ∃ x : ℝ, a10 i = (x : EReal)) ∧ (∀ i, ∃ x : ℝ, a11 i = (x : EReal)) := by
  have e := congrFun h ix0
  dsimp only [Cert.Pre_finite_inputs.fn, fn_part1, fn_part2, fn_part3, fn_part4] at e
  obtain ⟨e, e3⟩ := IntOp.andi_eq_one.1 e
  obtain ⟨e, e2⟩ := IntOp.andi_eq_one.1 e
  obtain ⟨e, -⟩ := IntOp.andi_eq_one.1 e
  obtain ⟨e, -⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  exact ⟨real_of_all a0 _ _ _ (IntOp.andi_eq_one.1 e).1, fun _ => range_of_all a2 _ _ _ e2 _, fun _ => range_of_all a3 _ _ _ e3 _,
    real_of_all a4 _ _ _ e4, real_of_all a5 _ _ _ e5, real_of_all a6 _ _ _ e6, real_of_all a7 _ _ _ e7, real_of_all a8 _ _ _ e8,
    real_of_all a9 _ _ _ e9, real_of_all a10 _ _ _ e10, real_of_all a11 _ _ _ e11⟩

end

end Cert.PreFacts

end
-- ==== Proof.Final.lean ====
import proofs.«424071_j18090402251221_1_alg».proof.Defs
import proofs.«424071_j18090402251221_1_alg».proof.Proof.Gen.KernelIdeal
import proofs.«424071_j18090402251221_1_alg».proof.Proof.Gen.ReferenceIdeal
import proofs.«424071_j18090402251221_1_alg».proof.Proof.Gen.Pre_finite_inputs
import proofs.«424071_j18090402251221_1_alg».proof.Proof.KI.Run
import proofs.«424071_j18090402251221_1_alg».proof.Proof.KI.Chain
import proofs.«424071_j18090402251221_1_alg».proof.Proof.Join.Proj
import proofs.«424071_j18090402251221_1_alg».proof.Proof.Join.Edge
import proofs.«424071_j18090402251221_1_alg».proof.Proof.Join.Stats
import proofs.«424071_j18090402251221_1_alg».proof.Proof.Join.Out
import proofs.«424071_j18090402251221_1_alg».proof.Proof.Ref.Run
import proofs.«424071_j18090402251221_1_alg».proof.Proof.Ref.Finite
import proofs.«424071_j18090402251221_1_alg».proof.Proof.PreFacts

noncomputable section

namespace Cert.Final

open Idealize.ShloMosaic Idealize.SL.Sem Idealize.ShloMosaic.ValueIdx
open Cert.KernelIdeal Cert.KernelIdeal.Hand Cert.KernelIdeal.Chain
open Cert.ReferenceIdeal.Stages Cert.Join

variable (m : (ℓ : Loc nD τ sig) → Buf (Elt Ideal) ℓ) (ρ : Dev nD → PrngReg)

abbrev arg (c : Dev nD) (b : Ref sig .tc) := m ((c.tc : Thread nD τ).loc b)

/-- The reference's function of core `c`'s launch arrays. -/
abbrev res (c : Dev nD) :=
  refRes (F := Ideal) (arg m c main_arg0) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13)

/-- Under the precondition the kernel's result buffer ends at the reference's function of the launch arrays. -/
theorem kernel_value (hpre : Cert.Pre_KernelIdeal m) (c : Dev nD) :
    (W10 m ρ c (Proc.devRef .tc main_v18) : FVec Ideal Cert.ReferenceIdeal.S50000x128 .f32) = res m c := by
  obtain ⟨r0, hsrc, hdst, r4, r5, r6, r7, r8, r9, r10, r11⟩ := Cert.PreFacts.facts _ _ _ _ _ _ _ _ _ _ _ _ _ _ (hpre c)
  have eAh := kAh m ρ c
  have eBh := kBh m ρ c
  have eDh := kDh m ρ c
  have eEh := kEh m ρ c
  have eSig := kSig m ρ c hsrc hdst _ _ eDh eEh
  have eWgt := kWgt m ρ c hsrc hdst _ _ _ eDh eEh eBh
  have eNum := kNum m ρ c _ eWgt
  have eDen := kDen m ρ c _ eSig
  have eA7 := (in2_a m ρ c).trans eAh
  have hreal := Cert.ReferenceIdeal.StageFinite.raw_real _ _ _ _ _ _ _ _ _ _ _ r0 r4 r5 r6 r7 r8 r9 r10 r11 hsrc hdst
  have eRaw := kRaw m ρ c _ _ _ eA7 eNum eDen
  have eMean := kMean m ρ c _ _ _ eA7 eNum eDen
  have eVar := kVar m ρ c _ _ _ eA7 eNum eDen hreal
  exact (kOut m ρ c _ _ _ eRaw eMean eVar).trans (refRes_unfold _ _ _ _ _ _ _ _ _ _ _ _ _).symm

/-- The two idealized programs, run from memories agreeing on the arguments, end with equal results. -/
theorem algebraic : Cert.algebraic_KernelIdeal_ReferenceIdeal := by
  intro m ρ m' ρ' hpre hagree
  refine ⟨res m, fun c => arg m c main_arg1, ?_, ?_⟩
  · refine (θ_run (defs (F := Ideal)) _ _).mono (fun r h c => ?_) (run_all (F := Ideal) m ρ)
    have e := arg_end m ρ c (h c)
    exact ⟨(h c _ (mem_uc main_v18 (by decide))).trans (kernel_value m ρ hpre c), e _ (by decide), e _ (by decide), e _ (by decide),
      e _ (by decide), e _ (by decide), e _ (by decide), e _ (by decide), e _ (by decide), e _ (by decide), e _ (by decide),
      e _ (by decide), e _ (by decide), e _ (by decide), e _ (by decide), e _ (by decide)⟩
  · refine (θ_run (Cert.ReferenceIdeal.defs (F := Ideal)) _ _).mono (fun r h c => ?_) (Cert.ReferenceIdeal.RefRun.run (F := Ideal) m' ρ')
    obtain ⟨hres, h0, h1, h2, h3, h4, h5, h6, h7, h8, h9, h10, h11, h12, h13⟩ := h c
    obtain ⟨g0, g1, g2, g3, g4, g5, g6, g7, g8, g9, g10, g11, g12, g13⟩ := hagree c
    refine ⟨hres.trans ?_, h1.trans g1, h0, h1, h2, h3, h4, h5, h6, h7, h8, h9, h10, h11, h12, h13⟩
    rw [g0, g2, g3, g4, g5, g6, g7, g8, g9, g10, g11, g12, g13]

end Cert.Final

end
-- ==== Proof.lean ====
/- Both programs compute the gated graph-convolution layer
   h + relu (batchnorm (A h + (Σ_{j→i} σ_ij ⊙ B h_j) / (Σ_{j→i} σ_ij + ε))), σ_ij = sigmoid (D h_j + E h_i),
   for indices in range and finite inputs, and every run ends with its arguments unchanged. -/
import proofs.«424071_j18090402251221_1_alg».proof.Defs
import proofs.«424071_j18090402251221_1_alg».proof.Proof.Gen.Kernel
import proofs.«424071_j18090402251221_1_alg».proof.Proof.Gen.KernelIdeal
import proofs.«424071_j18090402251221_1_alg».proof.Proof.Gen.ReferenceIdeal
import proofs.«424071_j18090402251221_1_alg».proof.Proof.Gen.Pre_finite_inputs
import proofs.«424071_j18090402251221_1_alg».proof.Proof.K.Run
import proofs.«424071_j18090402251221_1_alg».proof.Proof.KI.Run
import proofs.«424071_j18090402251221_1_alg».proof.Proof.Ref.Run
import proofs.«424071_j18090402251221_1_alg».proof.Proof.Final

noncomputable section

namespace Cert.Proof

open Idealize.ShloMosaic Idealize.SL.Sem

theorem frame_k : Cert.frame_Kernel := fun m ρ _ =>
  (θ_run _ _ _).mono (fun _ h c => have e := Cert.Kernel.Hand.arg_end m ρ c (h c)
    ⟨e _ (by decide), e _ (by decide), e _ (by decide), e _ (by decide), e _ (by decide), e _ (by decide), e _ (by decide),
      e _ (by decide), e _ (by decide), e _ (by decide), e _ (by decide), e _ (by decide), e _ (by decide), e _ (by decide)⟩) (Cert.Kernel.Hand.run_all (F := Bits) m ρ)

theorem frame_ki : Cert.frame_KernelIdeal := fun m ρ _ =>
  (θ_run _ _ _).mono (fun _ h c => have e := Cert.KernelIdeal.Hand.arg_end m ρ c (h c)
    ⟨e _ (by decide), e _ (by decide), e _ (by decide), e _ (by decide), e _ (by decide), e _ (by decide), e _ (by decide),
      e _ (by decide), e _ (by decide), e _ (by decide), e _ (by decide), e _ (by decide), e _ (by decide), e _ (by decide)⟩) (Cert.KernelIdeal.Hand.run_all (F := Ideal) m ρ)

theorem frame_ri : Cert.frame_ReferenceIdeal := fun m ρ _ =>
  (θ_run (Cert.ReferenceIdeal.defs (F := Ideal)) _ _).mono (fun _ h c => (h c).2)
    (Cert.ReferenceIdeal.RefRun.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Final.algebraic⟩

end Cert.Proof

end
